-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg14 : FVec F S64 .f32) (main_arg15 : FVec F S64 .f32) (main_arg16 : FVec F S64 .f32) (main_arg17 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : FVec F S1600000x64 .f32) (main_arg2 : IVec S1600000 32) (main_arg3 : IVec S1600000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S1x256 : Shape := ⟨2, ![1, 256]⟩
abbrev S100000x128 : Shape := ⟨2, ![100000, 128]⟩
abbrev S5000x64 : Shape := ⟨2, ![5000, 64]⟩
abbrev S5000x128 : Shape := ⟨2, ![5000, 128]⟩
abbrev S5000x256 : Shape := ⟨2, ![5000, 256]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S4000x64 : Shape := ⟨2, ![4000, 64]⟩
abbrev S50000x128 : Shape := ⟨2, ![50000, 128]⟩
abbrev S1x128 : Shape := ⟨2, ![1, 128]⟩
abbrev S10000x128 : Shape := ⟨2, ![10000, 128]⟩
abbrev S128 : Shape := ⟨1, ![128]⟩
abbrev S2x64 : Shape := ⟨2, ![2, 64]⟩
abbrev S800000x128 : Shape := ⟨2, ![800000, 128]⟩
abbrev S8000x128 : Shape := ⟨2, ![8000, 128]⟩

abbrev nBuf : Space → Nat
  | .hbm => 137
  | .vmem => 54
  | .smem => 0
  | _ => 0

abbrev hbmTy0_0 (i : Nat) : BufTy := match i % 128 with
  | 0 => ⟨S100000x64, .f32⟩
  | 1 => ⟨S1600000x64, .f32⟩
  | 2 => ⟨S1600000, .i32⟩
  | 3 => ⟨S1600000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64x256, .f32⟩
  | 19 => ⟨S256, .f32⟩
  | 20 => ⟨S1x256, .f32⟩
  | 21 => ⟨S100000x128, .f32⟩
  | 22 => ⟨S100000x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x64, .f32⟩
  | 34 => ⟨S1600000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1x64, .f32⟩
  | 45 => ⟨S1600000x64, .f32⟩
  | 46 => ⟨S1600000x64, .f32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S_, .f32⟩
  | 53 => ⟨S100000x64, .f32⟩
  | 54 => ⟨S1600000x1, .i32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S50000x128, .f32⟩
  | 62 => ⟨S50000x128, .f32⟩
  | 63 => ⟨S1x128, .f32⟩
  | 64 => ⟨S1x128, .f32⟩
  | 65 => ⟨S128, .f32⟩
  | 66 => ⟨S128, .f32⟩
  | 67 => ⟨S64, .f32⟩
  | 68 => ⟨S64, .f32⟩
  | 69 => ⟨S64, .f32⟩
  | 70 => ⟨S64, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S64, .f32⟩
  | 80 => ⟨S64, .f32⟩
  | 81 => ⟨S1x64, .f32⟩
  | 82 => ⟨S2x64, .f32⟩
  | 83 => ⟨S128, .f32⟩
  | 84 => ⟨S1x128, .f32⟩
  | 85 => ⟨S1x64, .f32⟩
  | 86 => ⟨S2x64, .f32⟩
  | 87 => ⟨S128, .f32⟩
  | 88 => ⟨S1x128, .f32⟩
  | 89 => ⟨S1x64, .f32⟩
  | 90 => ⟨S2x64, .f32⟩
  | 91 => ⟨S128, .f32⟩
  | 92 => ⟨S1x128, .f32⟩
  | 93 => ⟨S1x64, .f32⟩
  | 94 => ⟨S2x64, .f32⟩
  | 95 => ⟨S128, .f32⟩
  | 96 => ⟨S1x128, .f32⟩
  | 97 => ⟨S50000x128, .f32⟩
  | 98 => ⟨S100000x64, .f32⟩
  | 99 => ⟨S800000x128, .f32⟩
  | 100 => ⟨S800000x128, .f32⟩
  | 101 => ⟨S1x128, .f32⟩
  | 102 => ⟨S1x128, .f32⟩
  | 103 => ⟨S128, .f32⟩
  | 104 => ⟨S128, .f32⟩
  | 105 => ⟨S64, .f32⟩
  | 106 => ⟨S64, .f32⟩
  | 107 => ⟨S64, .f32⟩
  | 108 => ⟨S64, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S64, .f32⟩
  | 118 => ⟨S64, .f32⟩
  | 119 => ⟨S1x64, .f32⟩
  | 120 => ⟨S2x64, .f32⟩
  | 121 => ⟨S128, .f32⟩
  | 122 => ⟨S1x128, .f32⟩
  | 123 => ⟨S1x64, .f32⟩
  | 124 => ⟨S2x64, .f32⟩
  | 125 => ⟨S128, .f32⟩
  | 126 => ⟨S1x128, .f32⟩
  | 127 => ⟨S1x64, .f32⟩
  | _ => ⟨S100000x64, .f32⟩

abbrev hbmTy0_1 (i : Nat) : BufTy := match i % 128 with
  | 0 => ⟨S2x64, .f32⟩
  | 1 => ⟨S128, .f32⟩
  | 2 => ⟨S1x128, .f32⟩
  | 3 => ⟨S1x64, .f32⟩
  | 4 => ⟨S2x64, .f32⟩
  | 5 => ⟨S128, .f32⟩
  | 6 => ⟨S1x128, .f32⟩
  | 7 => ⟨S800000x128, .f32⟩
  | 8 => ⟨S1600000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S8000x128, .f32⟩
  | .local _ .vmem, ⟨41, _⟩ => ⟨S8000x128, .f32⟩
  | .local _ .vmem, ⟨42, _⟩ => ⟨S1x128, .f32⟩
  | .local _ .vmem, ⟨43, _⟩ => ⟨S1x128, .f32⟩
  | .local _ .vmem, ⟨44, _⟩ => ⟨S8000x128, .f32⟩
  | .local _ .vmem, ⟨45, _⟩ => ⟨S8000x128, .f32⟩
  | .local _ .vmem, ⟨46, _⟩ => ⟨S8000x128, .f32⟩
  | .local _ .vmem, ⟨47, _⟩ => ⟨S8000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S8000x128, .f32⟩
  | .local _ .vmem, ⟨53, _⟩ => ⟨S8000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v21_2 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69_0 : Ref sig .tc := ⟨.hbm, 101, rfl⟩
abbrev main_v69_1 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_7 : Ref sig .tc := ⟨.hbm, 111, rfl⟩
abbrev main_v78 : Ref sig .tc := ⟨.hbm, 112, rfl⟩
abbrev main_v79 : Ref sig .tc := ⟨.hbm, 113, rfl⟩
abbrev main_cst_8 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  concatenates_S64x64_S64x64_S64x64_S64x64_S64x256_d1 : Shape.Concatenates [S64x64, S64x64, S64x64, S64x64] S64x256 1
  concatenates_S64_S64_S64_S64_S256_d0 : Shape.Concatenates [S64, S64, S64, S64] S256 0
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  inb_S5000x128_S5000x128_0_0 : ∀ a, (![0, 0] : Fin 2 → Nat) a + S5000x128.size a ≤ S5000x128.size a
  h_S5000x128 : 0 < S5000x128.numel
  slices_S5000x256_o0_128_S5000x64 : S5000x256.Slices ![0, 128] S5000x64
  slices_S5000x256_o0_192_S5000x64 : S5000x256.Slices ![0, 192] S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x128_S1600000x64_0_0 : S1600000x128.Slices ![0, 0] S1600000x64
  slices_S1600000x128_S1600000x64_0_64 : S1600000x128.Slices ![0, 64] S1600000x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S4000x64_S4000x64 : S4000x64.ShapeCasts S4000x64
  bcast_S_S100000x64 : S_.BroadcastsInDim S100000x64 (![] : Fin 0 → Fin S100000x64.rank)
  shapeCasts_S100000x64_S50000x128 : S100000x64.ShapeCasts S50000x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  shapeCasts_S1x128_S128 : S1x128.ShapeCasts S128
  slices_S128_S64_0 : S128.Slices ![0] S64
  slices_S128_S64_64 : S128.Slices ![64] S64
  bcast_S_S64 : S_.BroadcastsInDim S64 (![] : Fin 0 → Fin S64.rank)
  bcast_S1x64_S2x64_0_1 : S1x64.BroadcastsInDim S2x64 (![0, 1] : Fin 2 → Fin S2x64.rank)
  shapeCasts_S2x64_S128 : S2x64.ShapeCasts S128
  shapeCasts_S5000x128_S5000x128 : S5000x128.ShapeCasts S5000x128
  broadcasts_S1x128_S5000x128 : S1x128.Broadcasts S5000x128
  shapeCasts_S50000x128_S100000x64 : S50000x128.ShapeCasts S100000x64
  shapeCasts_S1600000x64_S800000x128 : S1600000x64.ShapeCasts S800000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S128 : S8000x128.Reduces [0] S128
  broadcasts_S1x128_S8000x128 : S1x128.Broadcasts S8000x128
  shapeCasts_S800000x128_S1600000x64 : S800000x128.ShapeCasts S1600000x64
  dot_S5000x64_S64x256_S5000x256_1_0_0_1_n_n_wf : DotDims.WF S5000x64 S64x256 S5000x256 [1] [0] [0] [1] [] []
  gather_S100000x128_S1600000x1_S1600000x128_1_0_n_n_0_1_1128_wf : GatherDims.WF S100000x128 S1600000x1 S1600000x128 [1] [0] [] [0] [] 1 ![1, 128]
  gather_S100000x64_S1600000x1_S1600000x64_1_0_n_n_0_1_164_wf : GatherDims.WF S100000x64 S1600000x1 S1600000x64 [1] [0] [] [0] [] 1 ![1, 64]
  dot_S4000x64_S64x64_S4000x64_1_0_0_1_n_n_wf : DotDims.WF S4000x64 S64x64 S4000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S1600000x64.size a
  hwx1_3 : ∀ i : grid1.Coords, EltTy.bits .f32 = 32 ∨ (Rect.block (s := S1600000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S1600000x64.size a
  hwx1_6 : ∀ i : grid1.Coords, EltTy.bits .f32 = 32 ∨ (Rect.block (s := S1600000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S1600000x64.size a
  hwx1_7 : ∀ i : grid1.Coords, EltTy.bits .f32 = 32 ∨ (Rect.block (s := S1600000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S1600000x64.size a
  hwx1_8 : ∀ i : grid1.Coords, EltTy.bits .f32 = 32 ∨ (Rect.block (s := S1600000x64) S4000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S800000x128.size a
  hwx5_0 : ∀ i : grid5.Coords, EltTy.bits .f32 = 32 ∨ (Rect.block (s := S800000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S800000x128.size a
  hwx5_1 : ∀ i : grid5.Coords, EltTy.bits .f32 = 32 ∨ (Rect.block (s := S800000x128) S8000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8000x128.size a ≤ S800000x128.size a
  hwx5_6 : ∀ i : grid5.Coords, EltTy.bits .f32 = 32 ∨ (Rect.block (s := S800000x128) S8000x128.size (cc5_transform_6 i) (hinb5_6 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S4000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_2) S4000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v32) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v67) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S8000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x1 : Shape := ⟨2, ![1600000, 1]⟩

abbrev nBuf : Space → Nat
  | .hbm => 197
  | .vmem => 0
  | .smem => 0
  | _ => 0

abbrev hbmTy0_0 (i : Nat) : BufTy := match i % 128 with
  | 0 => ⟨S100000x64, .f32⟩
  | 1 => ⟨S1600000x64, .f32⟩
  | 2 => ⟨S1600000, .i32⟩
  | 3 => ⟨S1600000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S1600000x64, .f32⟩
  | 46 => ⟨S1x64, .f32⟩
  | 47 => ⟨S1600000x64, .f32⟩
  | 48 => ⟨S1600000x64, .f32⟩
  | 49 => ⟨S1600000x64, .f32⟩
  | 50 => ⟨S1600000x64, .f32⟩
  | 51 => ⟨S1600000x64, .f32⟩
  | 52 => ⟨S_, .f32⟩
  | 53 => ⟨S1600000x64, .f32⟩
  | 54 => ⟨S1600000x64, .f32⟩
  | 55 => ⟨S_, .f32⟩
  | 56 => ⟨S1600000x64, .f32⟩
  | 57 => ⟨S1600000x64, .f32⟩
  | 58 => ⟨S100000x64, .f32⟩
  | 59 => ⟨S1x64, .f32⟩
  | 60 => ⟨S100000x64, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S_, .f32⟩
  | 77 => ⟨S100000x64, .f32⟩
  | 78 => ⟨S1600000x1, .i32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S_, .i32⟩
  | 95 => ⟨S_, .f32⟩
  | 96 => ⟨S64, .f32⟩
  | 97 => ⟨S1x64, .f32⟩
  | 98 => ⟨S_, .f32⟩
  | 99 => ⟨S1x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S_, .f32⟩
  | 106 => ⟨S_, .f32⟩
  | 107 => ⟨S_, .f32⟩
  | 108 => ⟨S64, .f32⟩
  | 109 => ⟨S64, .f32⟩
  | 110 => ⟨S64, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S_, .f32⟩
  | 15 => ⟨S64, .f32⟩
  | 16 => ⟨S_, .f32⟩
  | 17 => ⟨S64, .f32⟩
  | 18 => ⟨S64, .f32⟩
  | 19 => ⟨S_, .i32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S1600000x64, .f32⟩
  | 27 => ⟨S1600000x64, .f32⟩
  | 28 => ⟨S1600000x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S64, .f32⟩
  | 36 => ⟨S_, .f32⟩
  | 37 => ⟨S_, .i1⟩
  | 38 => ⟨S_, .f32⟩
  | 39 => ⟨S_, .f32⟩
  | 40 => ⟨S64, .f32⟩
  | 41 => ⟨S64, .f32⟩
  | 42 => ⟨S1x64, .f32⟩
  | 43 => ⟨S1600000x64, .f32⟩
  | 44 => ⟨S1600000x64, .f32⟩
  | 45 => ⟨S_, .f32⟩
  | 46 => ⟨S64, .f32⟩
  | 47 => ⟨S64, .f32⟩
  | 48 => ⟨S64, .f32⟩
  | 49 => ⟨S1x64, .f32⟩
  | 50 => ⟨S1600000x64, .f32⟩
  | 51 => ⟨S1600000x64, .f32⟩
  | 52 => ⟨S1x64, .f32⟩
  | 53 => ⟨S1600000x64, .f32⟩
  | 54 => ⟨S1600000x64, .f32⟩
  | 55 => ⟨S1x64, .f32⟩
  | 56 => ⟨S1600000x64, .f32⟩
  | 57 => ⟨S1600000x64, .f32⟩
  | 58 => ⟨S1600000x64, .f32⟩
  | 59 => ⟨S1600000x64, .f32⟩
  | 60 => ⟨S_, .f32⟩
  | 61 => ⟨S1600000x64, .f32⟩
  | 62 => ⟨S1600000x64, .f32⟩
  | 63 => ⟨S_, .f32⟩
  | 64 => ⟨S1600000x64, .f32⟩
  | 65 => ⟨S1600000x64, .f32⟩
  | 66 => ⟨S1600000x64, .f32⟩
  | 67 => ⟨S100000x64, .f32⟩
  | 68 => ⟨S1600000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_cst_3 : Ref sig .tc := ⟨.hbm, 111, rfl⟩
abbrev main_call0_v12 : Ref sig .tc := ⟨.hbm, 112, rfl⟩
abbrev main_call0_cst_4 : Ref sig .tc := ⟨.hbm, 113, rfl⟩
abbrev main_call0_call0_v0 : Ref sig .tc := ⟨.hbm, 114, rfl⟩
abbrev main_call0_call0_v1 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_12 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_call1_v0 : Ref sig .tc := ⟨.hbm, 133, rfl⟩
abbrev main_call1_v1 : Ref sig .tc := ⟨.hbm, 134, rfl⟩
abbrev main_call1_cst : Ref sig .tc := ⟨.hbm, 135, rfl⟩
abbrev main_call1_v2 : Ref sig .tc := ⟨.hbm, 136, rfl⟩
abbrev main_call1_v3 : Ref sig .tc := ⟨.hbm, 137, rfl⟩
abbrev main_call1_cst_0 : Ref sig .tc := ⟨.hbm, 138, rfl⟩
abbrev main_call1_v4 : Ref sig .tc := ⟨.hbm, 139, rfl⟩
abbrev main_call1_v5 : Ref sig .tc := ⟨.hbm, 140, rfl⟩
abbrev main_v79 : Ref sig .tc := ⟨.hbm, 141, rfl⟩
abbrev main_cst_13 : Ref sig .tc := ⟨.hbm, 142, rfl⟩
abbrev main_v80 : Ref sig .tc := ⟨.hbm, 143, rfl⟩
abbrev main_cst_14 : Ref sig .tc := ⟨.hbm, 144, rfl⟩
abbrev main_v81 : Ref sig .tc := ⟨.hbm, 145, rfl⟩
abbrev main_v82 : Ref sig .tc := ⟨.hbm, 146, rfl⟩
abbrev main_c_15 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_cst_3 : Ref sig .tc := ⟨.hbm, 164, rfl⟩
abbrev main_call2_v12 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_cst_16 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_call3_v0 : Ref sig .tc := ⟨.hbm, 186, rfl⟩
abbrev main_call3_v1 : Ref sig .tc := ⟨.hbm, 187, rfl⟩
abbrev main_call3_cst : Ref sig .tc := ⟨.hbm, 188, rfl⟩
abbrev main_call3_v2 : Ref sig .tc := ⟨.hbm, 189, rfl⟩
abbrev main_call3_v3 : Ref sig .tc := ⟨.hbm, 190, rfl⟩
abbrev main_call3_cst_0 : Ref sig .tc := ⟨.hbm, 191, rfl⟩
abbrev main_call3_v4 : Ref sig .tc := ⟨.hbm, 192, rfl⟩
abbrev main_call3_v5 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S1600000x64_S64_d0 : S1600000x64.ReducesTo [0] S64
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KB.Reg0.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rNode : Rect S5000x64 := Rect.unit (s := S5000x64) ![0, 0] S5000x64.size inb_S5000x64_S5000x64_0_0
abbrev rWeight : Rect S64x256 := Rect.unit (s := S64x256) ![0, 0] S64x256.size inb_S64x256_S64x256_0_0
abbrev rBias : Rect S1x256 := Rect.unit (s := S1x256) ![0, 0] S1x256.size inb_S1x256_S1x256_0_0
abbrev rWide : Rect S5000x128 := Rect.unit (s := S5000x128) ![0, 0] S5000x128.size inb_S5000x128_S5000x128_0_0

def out0_3 (x0 : Vec F S5000x64 .f32) (x1 : Vec F S64x256 .f32) (x2 : Vec F S1x256 .f32) : Vec F S5000x128 .f32 :=
  View.canon [⟨rWide, k0_pay2 (View.ld x0 rNode) (View.ld x1 rWeight) (View.ld x2 rBias)⟩]

def out0_4 (x0 : Vec F S5000x64 .f32) (x1 : Vec F S64x256 .f32) (x2 : Vec F S1x256 .f32) : Vec F S5000x64 .f32 :=
  View.canon [⟨rNode, k0_pay3 (View.ld x0 rNode) (View.ld x1 rWeight) (View.ld x2 rBias)⟩]

def out0_5 (x0 : Vec F S5000x64 .f32) (x1 : Vec F S64x256 .f32) (x2 : Vec F S1x256 .f32) : Vec F S5000x64 .f32 :=
  View.canon [⟨rNode, k0_pay4 (View.ld x0 rNode) (View.ld x1 rWeight) (View.ld x2 rBias)⟩]

theorem cover0_3 (p : Vec F S5000x128 .f32) (y : S5000x128.Idx) :
    ∃ pc ∈ ([⟨rWide, p⟩] : List (View.Piece (Elt F) S5000x128 .f32)), y ∈ pc.1.set :=
  View.cover_of_tiled [⟨rWide, p⟩] S5000x128.size (by rfl) y

theorem cover0_4 (p : Vec F S5000x64 .f32) (y : S5000x64.Idx) :
    ∃ pc ∈ ([⟨rNode, p⟩] : List (View.Piece (Elt F) S5000x64 .f32)), y ∈ pc.1.set :=
  View.cover_of_tiled [⟨rNode, p⟩] S5000x64.size (by rfl) y

theorem sound_kernel0 (c : Dev nD) (E : Set ℕ) (i : grid0.Coords)
    (arg1 : Memref sig .tc .vmem S5000x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S5000x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton, owns_eq_rep]; unfold cc0__node_proj_kernel_skel
  iintro ⟨H0, H1, H2, ⟨%d3, H3⟩, ⟨%d4, H4⟩, ⟨%d5, H5⟩, Hk⟩
  sl_exec
  sl_step
  simp only [View.readAt_rep]
  iapply Hk
  iframe
  isplitl [H3]; rotate_left; isplitl [H4]; rotate_left
  all_goals (iapply rep_of_owns; unfold owns; iexists _; isplitr; swap; iassumption; ipureintro)
  all_goals first | exact View.read_writes_eq_canon _ _ _ (cover0_3 _) | exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0 (c : Dev nD) (t : Fin cfg0.N) : ∀ w : Fin cfg0.W, w.1 < 3 → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨_ + 3, _⟩, h => absurd h (Nat.not_lt.2 (Nat.le_add_left _ _))

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp (disch := decide) only [before0 V c t]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ _ _ _ _)
  iframe
  isplitl [H3]; · iexists _; iexact H3
  isplitl [H4]; · iexists _; iexact H4
  isplitl [H5]; · iexists _; iexact H5
  iintro ⟨H0, H1, H2, H3, H4, H5⟩
  iframe

end Cert.Kernel.Hand

end
-- ==== Proof.KB.Reg1.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S4000x64 := Rect.unit (s := S4000x64) ![0, 0] S4000x64.size inb_S4000x64_S4000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

def out1_6 (x0 x1 x2 _ : Vec F S4000x64 .f32) (x4 : Vec F S64x64 .f32) (x5 : Vec F S1x64 .f32) : Vec F S4000x64 .f32 :=
  View.canon [⟨r1_e, k1_pay1 (View.ld x0 r1_e) (View.ld x4 r1_w) (View.ld x5 r1_b) (View.ld x1 r1_e) (View.ld x2 r1_e)⟩]

def out1_7 (x0 x1 x2 _ : Vec F S4000x64 .f32) (x4 : Vec F S64x64 .f32) (x5 : Vec F S1x64 .f32) : Vec F S4000x64 .f32 :=
  View.canon [⟨r1_e, k1_pay2 (View.ld x0 r1_e) (View.ld x4 r1_w) (View.ld x5 r1_b) (View.ld x1 r1_e) (View.ld x2 r1_e)⟩]

def out1_8 (x0 x1 x2 x3 : Vec F S4000x64 .f32) (x4 : Vec F S64x64 .f32) (x5 : Vec F S1x64 .f32) : Vec F S4000x64 .f32 :=
  View.canon [⟨r1_e, k1_pay3 (View.ld x0 r1_e) (View.ld x4 r1_w) (View.ld x5 r1_b) (View.ld x1 r1_e) (View.ld x2 r1_e) (View.ld x3 r1_e)⟩]

theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole) (arg9 : Memref sig .tc .vmem S4000x64 .f32) (harg9 : arg9.IsWhole)
    (x0 x1 x2 x3 : Vec F S4000x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton, owns_eq_rep]; unfold cc1__edge_kernel_skel
  iintro ⟨H0, H1, H2, H3, H4, H5, ⟨%d6, H6⟩, ⟨%d7, H7⟩, ⟨%d8, H8⟩, Hk⟩
  sl_exec
  sl_step
  simp only [View.readAt_rep]
  iapply Hk
  iframe
  isplitl [H6]; rotate_left; isplitl [H7]; rotate_left
  all_goals (iapply rep_of_owns; unfold owns; iexists _; isplitr; swap; iassumption; ipureintro)
  all_goals exact View.read_writes_eq_canon _ _ _ (View.cover_of_tiled _ S4000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

theorem before1 (c : Dev nD) (t : Fin cfg1.N) : ∀ w : Fin cfg1.W, w.1 < 6 → ∀ d, (dat1 V c).before w t d = (dat1 V c).after w t
  | ⟨0, _⟩, _ | ⟨1, _⟩, _ | ⟨2, _⟩, _ | ⟨3, _⟩, _ | ⟨4, _⟩, _ | ⟨5, _⟩, _ =>
    (dat1 V c).before_in_eq_fetched _ rfl (fun _ => rfl) (fun _ _ _ => rfl) (fun _ => rfl) t
  | ⟨_ + 6, _⟩, h => absurd h (Nat.not_lt.2 (Nat.le_add_left _ _))

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c t]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  isplitl [H7]; · iexists _; iexact H7
  isplitl [H8]; · iexists _; iexact H8
  iintro ⟨H0, H1, H2, H3, H4, H5, H6, H7, H8⟩
  iframe

end Cert.Kernel.Hand
-- ==== Proof.KB.Reg2.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

theorem off2 : (![0, 0] : Fin 2 → ℕ) = fun _ => 0 := funext fun a => by fin_cases a <;> rfl

-- The row rectangle starts at the origin with the buffer's own sizes, so any list of stores headed by one through it covers the buffer,
theorem cover2_1 (w : Vec F S1x128 .f32) (L : List (View.Piece (Elt F) S1x128 .f32)) (y : S1x128.Idx) :
    ∃ pc ∈ (⟨r2_1, w⟩ :: L), y ∈ pc.1.set :=
  ⟨_, List.mem_cons_self, View.mem_set_unit_zero off2 inb_S1x128_S1x128_0_0 y⟩

-- and that store hides every earlier one.
theorem canon2_last (w : Vec F S1x128 .f32) (L : List (View.Piece (Elt F) S1x128 .f32)) :
    View.canon (⟨r2_1, w⟩ :: L) = View.canon [⟨r2_1, w⟩] :=
  (View.canon_cons_unit_zero off2 inb_S1x128_S1x128_0_0 w L).trans (View.canon_unit_zero off2 inb_S1x128_S1x128_0_0 w).symm

def init2_1 : Vec F S1x128 .f32 := View.canon [⟨r2_1, k2_pay1 (F := F)⟩]
def init2_2 : Vec F S1x128 .f32 := View.canon [⟨r2_1, k2_pay2 (F := F)⟩]

def out2_1 (x0 : Vec F S10000x128 .f32) (a : Vec F S1x128 .f32) : Vec F S1x128 .f32 :=
  View.canon [⟨r2_1, k2_pay4 (View.ld x0 r2_0) (View.ld a r2_1)⟩]

def out2_2 (x0 : Vec F S10000x128 .f32) (a : Vec F S1x128 .f32) : Vec F S1x128 .f32 :=
  View.canon [⟨r2_1, k2_pay5 (View.ld x0 r2_0) (View.ld a r2_1)⟩]

abbrev cond2 (i : grid2.Coords) : Prop := (Scalar.cmpi .ne (Scalar.extui (Scalar.cmpi .eq (BitVec.ofNat 32 (i 0).val) 0#32)) 0#32) = 1#1

-- The body's branch is taken at the first point only.
theorem hcond2 : ∀ t : Fin cfg2.N, cond2 (grid2.coords t) ↔ t.val = 0 :=
  (by decide +kernel : ∀ t : Fin grid2.N, cond2 (grid2.coords t) ↔ t.val = 0)

section
variable (c : Dev nD) (E : Set ℕ) (i : grid2.Coords) (arg1 : Memref sig .tc .vmem S10000x128 .f32) (harg1 : arg1.IsWhole)
  (arg2 : Memref sig .tc .vmem S1x128 .f32) (harg2 : arg2.IsWhole) (arg3 : Memref sig .tc .vmem S1x128 .f32) (harg3 : arg3.IsWhole)

-- One triple for both branches: the rows added to are the zero rows at the first point (whatever the buffers held) and the buffers' own rows later.
theorem sound_kernel2 (x0 : Vec F S10000x128 .f32) (a1 a2 b1 b2 : Vec F S1x128 .f32)
    (hb : cond2 i ∧ b1 = init2_1 ∧ b2 = init2_2 ∨ ¬cond2 i ∧ b1 = a1 ∧ b2 = a2) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (out2_1 x0 b1)
            ∗ owns (c : Thread nD τ) arg3 fullShare (out2_2 x0 b2)) -∗ K ⟨⟩))
      ⊢ wp frame (wpE (defs₀ (F := F)) Variants.none c none) E (cc2__bn_stats_kernel i arg1 harg1 arg2 harg2 arg3 harg3) K := by
  simp only [cc2__bn_stats_kernel_eq_skeleton]; unfold cc2__bn_stats_kernel_skel owns
  rcases hb with ⟨hc, rfl, rfl⟩ | ⟨hc, rfl, rfl⟩ <;> (
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]; swap; isplitl [H1]
    all_goals iexists _; isplitr; swap; iassumption; ipureintro)
  iterate 2
    sl_unfold_run_names
    rw [View.read_writes_eq_canon _ _ _ (cover2_1 _ _), canon2_last, View.readCov_eq_canon_ld _ _ _ (cover2_1 _ _)]
    rfl
  rfl
  iterate 2 exact View.read_writes_eq_canon _ _ _ (cover2_1 _ _)
  rfl

end

-- What output window 1's buffer holds after the body at point n: the body's sum over the zero row at the first point, over the previous point's row later.
def acc2_1 (c : Dev nD) : (n : ℕ) → n < cfg2.N → Vec F S1x128 .f32
  | 0, hn => out2_1 (iblk2 V c 0 ⟨0, hn⟩) init2_1
  | n + 1, hn => out2_1 (iblk2 V c 0 ⟨n + 1, hn⟩) (acc2_1 c n (Nat.lt_of_succ_lt hn))

def acc2_2 (c : Dev nD) : (n : ℕ) → n < cfg2.N → Vec F S1x128 .f32
  | 0, hn => out2_2 (iblk2 V c 0 ⟨0, hn⟩) init2_2
  | n + 1, hn => out2_2 (iblk2 V c 0 ⟨n + 1, hn⟩) (acc2_2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => acc2_1 V c t.val t.isLt
    | ⟨2, _⟩ => acc2_2 V c t.val t.isLt
  Φ _ := Pipeline.ΦA spec2 c
  q _ := fullShare
  owed _ := 0

theorem after2_1 (c : Dev nD) (t : Fin cfg2.N) : (dat2 V c).after 1 t = acc2_1 V c t.val t.isLt := rfl
theorem after2_2 (c : Dev nD) (t : Fin cfg2.N) : (dat2 V c).after 2 t = acc2_2 V c t.val t.isLt := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem keep2 {w : Fin cfg2.W} (hf : ∀ t : Fin cfg2.N, (cfg2.win w).flush t = true ↔ t.val % 5 = 4) {n : ℕ} (hn : n + 1 < cfg2.N) :
    (cfg2.win w).flush ⟨n + 1 - 1, Nat.lt_of_le_of_lt (Nat.sub_le _ _) hn⟩ = false :=
  Bool.eq_false_iff.mpr fun h => by have := (hf _).mp h; have := lt_of_lt_of_eq hn N_2; dsimp only at *; omega

theorem before2_1_B (c : Dev nD) (n : ℕ) (hn : n + 1 < cfg2.N) (d) : (dat2 V c).before 1 ⟨n + 1, hn⟩ d = acc2_1 V c n (Nat.lt_of_succ_lt hn) :=
  Dat.before_out_kept _ 1 rfl _ n.succ_ne_zero (keep2 flush2_1 hn) (fun _ => rfl) (fun _ _ => rfl) d

theorem before2_2_B (c : Dev nD) (n : ℕ) (hn : n + 1 < cfg2.N) (d) : (dat2 V c).before 2 ⟨n + 1, hn⟩ d = acc2_2 V c n (Nat.lt_of_succ_lt hn) :=
  Dat.before_out_kept _ 2 rfl _ n.succ_ne_zero (keep2 flush2_2 hn) (fun _ => rfl) (fun _ _ => rfl) d

-- By cases on the point: the first one adds to the zero rows, a later one to the previous point's rows.
theorem body_obligation2 (c : Dev nD) : BodyObligation (dat2 (F := F) V c) (defs₀ (F := F)) Variants.none () Set.univ := fun t => by
  rw [bigSep_W2, bigSep_W2]
  change iprop(_ ∗ _ ∗ (∃ d, owns _ _ _ ((dat2 V c).before 0 t d)) ∗ (∃ d, owns _ _ _ ((dat2 V c).before 1 t d)) ∗ (∃ d, owns _ _ _ ((dat2 V c).before 2 t d)))
    ⊢ wp _ _ _ (bodyAt2 t) fun _ => iprop((dat2 V c).Φ t.castSucc ∗ (dat2 V c).owesAt () t.castSucc
      ∗ owns _ _ _ (iblk2 V c 0 t) ∗ owns _ _ _ (acc2_1 V c t.val t.isLt) ∗ owns _ _ _ (acc2_2 V c t.val t.isLt))
  rcases t with ⟨_ | n, hn⟩ <;> simp only [before2_0, before2_1_B, before2_2_B, acc2_1, acc2_2] <;>
    iintro ⟨HΦ, Ho, ⟨%d0, H0⟩, ⟨%d1, H1⟩, ⟨%d2, H2⟩⟩
  · iapply sound_kernel2 c Set.univ _ _ _ _ _ _ _ (iblk2 V c 0 _) _ _ _ _ (.inl ⟨(hcond2 _).mpr rfl, rfl, rfl⟩)
    iframe H0 H1 H2
    iintro H; iframe
  · iapply sound_kernel2 c Set.univ _ _ _ _ _ _ _ (iblk2 V c 0 _) _ _ _ _ (.inr ⟨fun h => n.succ_ne_zero ((hcond2 _).mp h), rfl, rfl⟩)
    iframe H0 H1 H2
    iintro H; iframe

end Cert.Kernel.Hand

end
-- ==== Proof.KB.Reg3.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_6 (x0 x1 : Vec F S5000x128 .f32) (x2 x3 x4 x5 : Vec F S1x128 .f32) : Vec F S5000x128 .f32 :=
  View.canon [⟨r3_0, k3_pay1 (View.ld x0 r3_0) (View.ld x2 r3_1) (View.ld x3 r3_1) (View.ld x4 r3_1) (View.ld x5 r3_1) (View.ld x1 r3_0)⟩]

theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__apply_bn_silu_kernel i arg1 harg1 arg2 harg2 arg3 harg3 arg4 harg4 arg5 harg5 arg6 harg6 arg7 harg7) K := by
  simp only [cc3__apply_bn_silu_kernel_eq_skeleton, owns_eq_rep]; unfold cc3__apply_bn_silu_kernel_skel
  iintro ⟨H0, H1, H2, H3, H4, H5, ⟨%d6, H6⟩, Hk⟩
  sl_exec
  sl_step
  simp only [View.readAt_rep]
  iapply Hk
  iframe
  iapply rep_of_owns; unfold owns; iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3 (c : Dev nD) (t : Fin cfg3.N) : ∀ w : Fin cfg3.W, w ≠ 6 → ∀ d, (dat3 V c).before w t d = (dat3 V c).after w t
  | ⟨6, _⟩, hw => absurd rfl hw
  | ⟨0, _⟩, _ | ⟨1, _⟩, _ | ⟨2, _⟩, _ | ⟨3, _⟩, _ | ⟨4, _⟩, _ | ⟨5, _⟩, _ =>
    (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c t]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro ⟨H0, H1, H2, H3, H4, H5, H6⟩
  iframe

end Cert.Kernel.Hand
-- ==== Proof.KB.Reg4.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8000x128 := Rect.unit (s := S8000x128) ![0, 0] S8000x128.size inb_S8000x128_S8000x128_0_0
abbrev r4_1 : Rect S1x128 := Rect.unit (s := S1x128) ![0, 0] S1x128.size inb_S1x128_S1x128_0_0

theorem off4 : (![0, 0] : Fin 2 → ℕ) = fun _ => 0 := funext fun a => by fin_cases a <;> rfl

-- The row rectangle starts at the origin with the buffer's own sizes, so any list of stores headed by one through it covers the buffer,
theorem cover4_1 (w : Vec F S1x128 .f32) (L : List (View.Piece (Elt F) S1x128 .f32)) (y : S1x128.Idx) :
    ∃ pc ∈ (⟨r4_1, w⟩ :: L), y ∈ pc.1.set :=
  ⟨_, List.mem_cons_self, View.mem_set_unit_zero off4 inb_S1x128_S1x128_0_0 y⟩

-- and that store hides every earlier one.
theorem canon4_last (w : Vec F S1x128 .f32) (L : List (View.Piece (Elt F) S1x128 .f32)) :
    View.canon (⟨r4_1, w⟩ :: L) = View.canon [⟨r4_1, w⟩] :=
  (View.canon_cons_unit_zero off4 inb_S1x128_S1x128_0_0 w L).trans (View.canon_unit_zero off4 inb_S1x128_S1x128_0_0 w).symm

def init4_1 : Vec F S1x128 .f32 := View.canon [⟨r4_1, k4_pay1 (F := F)⟩]
def init4_2 : Vec F S1x128 .f32 := View.canon [⟨r4_1, k4_pay2 (F := F)⟩]

def out4_1 (x0 : Vec F S8000x128 .f32) (a : Vec F S1x128 .f32) : Vec F S1x128 .f32 :=
  View.canon [⟨r4_1, k4_pay4 (View.ld x0 r4_0) (View.ld a r4_1)⟩]

def out4_2 (x0 : Vec F S8000x128 .f32) (a : Vec F S1x128 .f32) : Vec F S1x128 .f32 :=
  View.canon [⟨r4_1, k4_pay5 (View.ld x0 r4_0) (View.ld a r4_1)⟩]

abbrev cond4 (i : grid4.Coords) : Prop := (Scalar.cmpi .ne (Scalar.extui (Scalar.cmpi .eq (BitVec.ofNat 32 (i 0).val) 0#32)) 0#32) = 1#1

-- The body's branch is taken at the first point only.
theorem hcond4 : ∀ t : Fin cfg4.N, cond4 (grid4.coords t) ↔ t.val = 0 :=
  (by decide +kernel : ∀ t : Fin grid4.N, cond4 (grid4.coords t) ↔ t.val = 0)

section
variable (c : Dev nD) (E : Set ℕ) (i : grid4.Coords) (arg1 : Memref sig .tc .vmem S8000x128 .f32) (harg1 : arg1.IsWhole)
  (arg2 : Memref sig .tc .vmem S1x128 .f32) (harg2 : arg2.IsWhole) (arg3 : Memref sig .tc .vmem S1x128 .f32) (harg3 : arg3.IsWhole)

-- One triple for both branches: the rows added to are the zero rows at the first point (whatever the buffers held) and the buffers' own rows later.
theorem sound_kernel4 (x0 : Vec F S8000x128 .f32) (a1 a2 b1 b2 : Vec F S1x128 .f32)
    (hb : cond4 i ∧ b1 = init4_1 ∧ b2 = init4_2 ∨ ¬cond4 i ∧ b1 = a1 ∧ b2 = a2) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (out4_1 x0 b1)
            ∗ owns (c : Thread nD τ) arg3 fullShare (out4_2 x0 b2)) -∗ K ⟨⟩))
      ⊢ wp frame (wpE (defs₀ (F := F)) Variants.none c none) E (cc4__bn_stats_kernel i arg1 harg1 arg2 harg2 arg3 harg3) K := by
  simp only [cc4__bn_stats_kernel_eq_skeleton]; unfold cc4__bn_stats_kernel_skel owns
  rcases hb with ⟨hc, rfl, rfl⟩ | ⟨hc, rfl, rfl⟩ <;> (
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]; swap; isplitl [H1]
    all_goals iexists _; isplitr; swap; iassumption; ipureintro)
  iterate 2
    sl_unfold_run_names
    rw [View.read_writes_eq_canon _ _ _ (cover4_1 _ _), canon4_last, View.readCov_eq_canon_ld _ _ _ (cover4_1 _ _)]
    rfl
  rfl
  iterate 2 exact View.read_writes_eq_canon _ _ _ (cover4_1 _ _)
  rfl

end

-- What output window 1's buffer holds after the body at point n: the body's sum over the zero row at the first point, over the previous point's row later.
def acc4_1 (c : Dev nD) : (n : ℕ) → n < cfg4.N → Vec F S1x128 .f32
  | 0, hn => out4_1 (iblk4 V c 0 ⟨0, hn⟩) init4_1
  | n + 1, hn => out4_1 (iblk4 V c 0 ⟨n + 1, hn⟩) (acc4_1 c n (Nat.lt_of_succ_lt hn))

def acc4_2 (c : Dev nD) : (n : ℕ) → n < cfg4.N → Vec F S1x128 .f32
  | 0, hn => out4_2 (iblk4 V c 0 ⟨0, hn⟩) init4_2
  | n + 1, hn => out4_2 (iblk4 V c 0 ⟨n + 1, hn⟩) (acc4_2 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_1 V c t.val t.isLt
    | ⟨2, _⟩ => acc4_2 V c t.val t.isLt
  Φ _ := Pipeline.ΦA spec4 c
  q _ := fullShare
  owed _ := 0

theorem after4_1 (c : Dev nD) (t : Fin cfg4.N) : (dat4 V c).after 1 t = acc4_1 V c t.val t.isLt := rfl
theorem after4_2 (c : Dev nD) (t : Fin cfg4.N) : (dat4 V c).after 2 t = acc4_2 V c t.val t.isLt := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d

theorem keep4 {w : Fin cfg4.W} (hf : ∀ t : Fin cfg4.N, (cfg4.win w).flush t = true ↔ t.val % 100 = 99) {n : ℕ} (hn : n + 1 < cfg4.N) :
    (cfg4.win w).flush ⟨n + 1 - 1, Nat.lt_of_le_of_lt (Nat.sub_le _ _) hn⟩ = false :=
  Bool.eq_false_iff.mpr fun h => by have := (hf _).mp h; have := lt_of_lt_of_eq hn N_4; dsimp only at *; omega

theorem before4_1_B (c : Dev nD) (n : ℕ) (hn : n + 1 < cfg4.N) (d) : (dat4 V c).before 1 ⟨n + 1, hn⟩ d = acc4_1 V c n (Nat.lt_of_succ_lt hn) :=
  Dat.before_out_kept _ 1 rfl _ n.succ_ne_zero (keep4 flush4_1 hn) (fun _ => rfl) (fun _ _ => rfl) d

theorem before4_2_B (c : Dev nD) (n : ℕ) (hn : n + 1 < cfg4.N) (d) : (dat4 V c).before 2 ⟨n + 1, hn⟩ d = acc4_2 V c n (Nat.lt_of_succ_lt hn) :=
  Dat.before_out_kept _ 2 rfl _ n.succ_ne_zero (keep4 flush4_2 hn) (fun _ => rfl) (fun _ _ => rfl) d

-- By cases on the point: the first one adds to the zero rows, a later one to the previous point's rows.
theorem body_obligation4 (c : Dev nD) : BodyObligation (dat4 (F := F) V c) (defs₀ (F := F)) Variants.none () Set.univ := fun t => by
  rw [bigSep_W4, bigSep_W4]
  change iprop(_ ∗ _ ∗ (∃ d, owns _ _ _ ((dat4 V c).before 0 t d)) ∗ (∃ d, owns _ _ _ ((dat4 V c).before 1 t d)) ∗ (∃ d, owns _ _ _ ((dat4 V c).before 2 t d)))
    ⊢ wp _ _ _ (bodyAt4 t) fun _ => iprop((dat4 V c).Φ t.castSucc ∗ (dat4 V c).owesAt () t.castSucc
      ∗ owns _ _ _ (iblk4 V c 0 t) ∗ owns _ _ _ (acc4_1 V c t.val t.isLt) ∗ owns _ _ _ (acc4_2 V c t.val t.isLt))
  rcases t with ⟨_ | n, hn⟩ <;> simp only [before4_0, before4_1_B, before4_2_B, acc4_1, acc4_2] <;>
    iintro ⟨HΦ, Ho, ⟨%d0, H0⟩, ⟨%d1, H1⟩, ⟨%d2, H2⟩⟩
  · iapply sound_kernel4 c Set.univ _ _ _ _ _ _ _ (iblk4 V c 0 _) _ _ _ _ (.inl ⟨(hcond4 _).mpr rfl, rfl, rfl⟩)
    iframe H0 H1 H2
    iintro H; iframe
  · iapply sound_kernel4 c Set.univ _ _ _ _ _ _ _ (iblk4 V c 0 _) _ _ _ _ (.inr ⟨fun h => n.succ_ne_zero ((hcond4 _).mp h), rfl, rfl⟩)
    iframe H0 H1 H2
    iintro H; iframe

end Cert.Kernel.Hand

end
-- ==== Proof.KB.Reg5.lean ====
import proofs.«419296_j32031866093810_3_alg».proof.Proof.Gen.Kernel.Launch
import proofs.«419296_j32031866093810_3_alg».proof.Proof.Gen.Kernel.Skeleton
import proofs.«419296_j32031866093810_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8000x128 := Rect.unit (s := S8000x128) ![0, 0] S8000x128.size inb_S8000x128_S8000x128_0_0
abbrev r5_1 : Rect S1x128 := Rect.unit (s := S1x128) ![0, 0] S1x128.size inb_S1x128_S1x128_0_0

def out5_6 (x0 x1 : Vec F S8000x128 .f32) (x2 x3 x4 x5 : Vec F S1x128 .f32) : Vec F S8000x128 .f32 :=
  View.canon [⟨r5_0, k5_pay1 (View.ld x0 r5_0) (View.ld x2 r5_1) (View.ld x3 r5_1) (View.ld x4 r5_1) (View.ld x5 r5_1) (View.ld x1 r5_0)⟩]

theorem cover5_6 (p0 : Vec F S8000x128 .f32) (y : S8000x128.Idx) :
    ∃ pc ∈ ([⟨r5_0, p0⟩] : List (View.Piece (Elt F) S8000x128 .f32)), y ∈ pc.1.set :=
  View.cover_of_tiled [⟨r5_0, p0⟩] S8000x128.size (by rfl) y

theorem sound_kernel5 (c : Dev nD) (E : Set ℕ) (i : grid5.Coords) (arg1 : Memref sig .tc .vmem S8000x128 .f32) (harg1 : arg1.IsWhole) (arg2 : Memref sig .tc .vmem S8000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8000x128 .f32) (harg7 : arg7.IsWhole)
    (x0 x1 : Vec F S8000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__apply_bn_silu_kernel i arg1 harg1 arg2 harg2 arg3 harg3 arg4 harg4 arg5 harg5 arg6 harg6 arg7 harg7) K := by
  simp only [cc5__apply_bn_silu_kernel_eq_skeleton, owns_eq_rep]; unfold cc5__apply_bn_silu_kernel_skel
  iintro ⟨H0, H1, H2, H3, H4, H5, ⟨%d6, H6⟩, Hk⟩
  sl_exec
  sl_step
  simp only [View.readAt_rep]
  iapply Hk
  iframe
  iapply rep_of_owns; unfold owns; iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin cfg5.W, w ≠ 6 → ∀ d, (dat5 V c).before w t d = (dat5 V c).after w t
  | ⟨6, _⟩, hw => absurd rfl hw
  | ⟨0, _⟩, _ | ⟨1, _⟩, _ | ⟨2, _⟩, _ | ⟨3, _⟩, _ | ⟨4, _⟩, _ | ⟨5, _⟩, _ =>
    (dat5 V c).before_in_eq_fetched _ rfl (fun _ => rfl) (fun _ _ _ => rfl) (fun _ => rfl) t

theorem body_obligation5 (c : Dev nD) : BodyObligation (dat5 (F := F) V c) (defs₀ (F := F)) Variants.none () Set.univ := fun t => by
  rw [bigSep_W5, bigSep_W5, show (dat5 V c).owesAt () t.succ = (dat5 V c).owesAt () t.castSucc from rfl]
  simp (disch := decide) only [before5 V c t]
  dsimp only [dat5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  iframe
  isplitl [H6]; · iexists _; iexact H6
  iintro ⟨H0, H1, H2, H3, H4, H5, H6⟩
  iframe

end Cert.Kernel.Hand
-- ==== Proof.KB.Run.lean ====
import proofs.«419296_j32031866093810_3_alg».proof.Proof.KB.Reg0
import proofs.«419296_j32031866093810_3_alg».proof.Proof.KB.Reg1
import proofs.«419296_j32031866093810_3_alg».proof.Proof.KB.Reg2
import proofs.«419296_j32031866093810_3_alg».proof.Proof.KB.Reg3
import proofs.«419296_j32031866093810_3_alg».proof.Proof.KB.Reg4
import proofs.«419296_j32031866093810_3_alg».proof.Proof.KB.Reg5
import proofs.«419296_j32031866093810_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b

/-- The buffer contents after each region, one stage at a time: the region's arrays at the fold of its write-backs over its entry contents, the earlier stages kept. -/
def o2 : Outs (F := F) := fun J r c => match J with
  | _ => Pipeline.withArrays spec0 c (V1 m c) (fun w => (dat0 (atTc (V1 m)) c).arrAt w cfg0.N) (Proc.devRef .tc r)

def o4 : Outs (F := F) := fun J r c => match J with
  | 2 => o2 m 2 r c
  | _ => Pipeline.withArrays spec1 c (V3 m (o2 m) c) (fun w => (dat1 (atTc (V3 m (o2 m))) c).arrAt w cfg1.N) (Proc.devRef .tc r)

def o6 : Outs (F := F) := fun J r c => match J with
  | 2 => o2 m 2 r c
  | 4 => o4 m 4 r c
  | _ => Pipeline.withArrays spec2 c (V5 m (o4 m) c) (fun w => (dat2 (atTc (V5 m (o4 m))) c).arrAt w cfg2.N) (Proc.devRef .tc r)

def o8 : Outs (F := F) := fun J r c => match J with
  | 2 => o2 m 2 r c
  | 4 => o4 m 4 r c
  | 6 => o6 m 6 r c
  | _ => Pipeline.withArrays spec3 c (V7 m (o6 m) c) (fun w => (dat3 (atTc (V7 m (o6 m))) c).arrAt w cfg3.N) (Proc.devRef .tc r)

def o10 : Outs (F := F) := fun J r c => match J with
  | 2 => o2 m 2 r c
  | 4 => o4 m 4 r c
  | 6 => o6 m 6 r c
  | 8 => o8 m 8 r c
  | _ => Pipeline.withArrays spec4 c (V9 m (o8 m) c) (fun w => (dat4 (atTc (V9 m (o8 m))) c).arrAt w cfg4.N) (Proc.devRef .tc r)

def outs : Outs (F := F) := fun J r c => match J with
  | 2 => o2 m 2 r c
  | 4 => o4 m 4 r c
  | 6 => o6 m 6 r c
  | 8 => o8 m 8 r c
  | 10 => o10 m 10 r c
  | _ => Pipeline.withArrays spec5 c (V11 m (o10 m) c) (fun w => (dat5 (atTc (V11 m (o10 m))) c).arrAt w cfg5.N) (Proc.devRef .tc r)

/-- Each region's data, read off the contents the region is entered from. -/
def pdats : (p : Fin 6) → (c : Dev nD) → Dat τ (Elt F) Unit ℕ (UR sig nD τ) ℕ (cfgs p) c
  | ⟨0, _⟩ => fun c => dat0 (atTc (V1 m)) c
  | ⟨1, _⟩ => fun c => dat1 (atTc (V3 m (o2 m))) c
  | ⟨2, _⟩ => fun c => dat2 (atTc (V5 m (o4 m))) c
  | ⟨3, _⟩ => fun c => dat3 (atTc (V7 m (o6 m))) c
  | ⟨4, _⟩ => fun c => dat4 (atTc (V9 m (o8 m))) c
  | ⟨5, _⟩ => fun c => dat5 (atTc (V11 m (o10 m))) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem outs_2 (r : Ref sig .tc) (c : Dev nD) : outs m 2 r c = Pipeline.withArrays spec0 c (V1 m c) (fun w => (dat0 (atTc (V1 m)) c).arrAt w cfg0.N) (Proc.devRef .tc r) := rfl
theorem outs_4 (r : Ref sig .tc) (c : Dev nD) : outs m 4 r c = Pipeline.withArrays spec1 c (V3 m (o2 m) c) (fun w => (dat1 (atTc (V3 m (o2 m))) c).arrAt w cfg1.N) (Proc.devRef .tc r) := rfl
theorem outs_6 (r : Ref sig .tc) (c : Dev nD) : outs m 6 r c = Pipeline.withArrays spec2 c (V5 m (o4 m) c) (fun w => (dat2 (atTc (V5 m (o4 m))) c).arrAt w cfg2.N) (Proc.devRef .tc r) := rfl
theorem outs_8 (r : Ref sig .tc) (c : Dev nD) : outs m 8 r c = Pipeline.withArrays spec3 c (V7 m (o6 m) c) (fun w => (dat3 (atTc (V7 m (o6 m))) c).arrAt w cfg3.N) (Proc.devRef .tc r) := rfl
theorem outs_10 (r : Ref sig .tc) (c : Dev nD) : outs m 10 r c = Pipeline.withArrays spec4 c (V9 m (o8 m) c) (fun w => (dat4 (atTc (V9 m (o8 m))) c).arrAt w cfg4.N) (Proc.devRef .tc r) := rfl
theorem outs_12 (r : Ref sig .tc) (c : Dev nD) : outs m 12 r c = Pipeline.withArrays spec5 c (V11 m (o10 m) c) (fun w => (dat5 (atTc (V11 m (o10 m))) c).arrAt w cfg5.N) (Proc.devRef .tc r) := rfl

/-- A region's exit contents from its entry contents: an array the region does not write is a read-only window's and keeps its entry contents, a written one holds the fold of its write-backs, and every other buffer is as at the entry. -/
theorem exit_of {p : Fin 6} (lf : Pipeline.LaunchFacts (nD := nD) (τ := τ) cfgs p) (c : Dev nD) (Vi Vo : Valuation τ sig (Elt F))
    (wr : List (Ref sig .tc)) (hA : ∀ w, (pdats m p c).A w = Vi (Pipeline.arrRef (cfgs p).spec w))
    (hof : ∀ r : Ref sig .tc, r ∉ wr → Vo r = Vi r)
    (hat : ∀ r ∈ wr, Vo r = Pipeline.withArrays (cfgs p).spec c Vi (fun w => (pdats m p c).arrAt w (cfgs p).N) (Proc.devRef .tc r))
    (hin : ∀ w, Pipeline.arrRef (cfgs p).spec w ∉ wr → ((cfgs p).win w).isOut = false)
    (hsub : ∀ r ∈ wr, r ∈ Finset.univ.image (Pipeline.arrRef (cfgs p).spec)) :
    (∀ w, (pdats m p c).arrAt w (cfgs p).N = Vo (Pipeline.arrRef (cfgs p).spec w))
      ∧ ∀ b : Ref sig .tc, b ∉ Finset.univ.image (Pipeline.arrRef (cfgs p).spec) → Vo b = Vi b :=
  ⟨fun w => if h : Pipeline.arrRef (cfgs p).spec w ∈ wr
      then ((hat _ h).trans (Pipeline.withArrays_arr _ lf.win.arr_inj c Vi _ w)).symm
      else ((pdats m p c).arrAt_in w (hin w h) _).trans ((hA w).trans (hof _ h).symm),
    fun b hb => hof b fun h => hb (hsub b h)⟩

set_option backward.isDefEq.respectTransparency.types false in

/-- A region entered with every buffer at the contents `Vi` and left with them at `Vo`; what `exit_of` asks of the two, and the shape of the region's data, hold by unfolding. -/
def mkReg (p : Fin 6) (lf : Pipeline.LaunchFacts (nD := nD) (τ := τ) cfgs p) (Vi Vo : Dev nD → Valuation τ sig (Elt F)) (wr : List (Ref sig .tc))
    (hbody : ∀ c, BodyObligation (pdats m p c) (defs₀ (F := F)) Variants.none () Set.univ)
    (hof : ∀ c (r : Ref sig .tc), r ∉ wr → Vo c r = Vi c r)
    (hΦ : ∀ c, (pdats m p c).Φ = fun _ => Pipeline.ΦA (cfgs p).spec c := by intros; rfl)
    (hq : ∀ c w, (pdats m p c).q w = fullShare := by intros; rfl) (howed : ∀ c, (pdats m p c).owed = fun _ => 0 := by intros; rfl)
    (hrec : ∀ c, (pdats m p c).recorded = fun _ => Set.univ := by intros; rfl)
    (hA : ∀ c w, (pdats m p c).A w = atTc Vi c (Pipeline.arrRef (cfgs p).spec w) := by intros; rfl)
    (hat : ∀ c, ∀ r ∈ wr, Vo c r = Pipeline.withArrays (cfgs p).spec c (Vi c) (fun w => (pdats m p c).arrAt w (cfgs p).N) (Proc.devRef .tc r) := by
      intro c r h; fin_cases h <;> rfl)
    (hin : ∀ w, Pipeline.arrRef (cfgs p).spec w ∉ wr → ((cfgs p).win w).isOut = false := by decide)
    (hsub : ∀ r ∈ wr, r ∈ Finset.univ.image (Pipeline.arrRef (cfgs p).spec) := by decide) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c t => congrFun (howed c) t
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hex := exit_of m lf c (Vi c) (Vo c) wr (hA c) (hof c) (hat c) hin hsub
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) hex.1 hex.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := mkReg m 0 launch0 (V1 m) (V2 m (outs m)) [main_v3_0, main_v3_1, main_v3_2] (body_obligation0 _) (V2_of m (outs m))
def reg1 := mkReg m 1 launch1 (V3 m (outs m)) (V4 m (outs m)) [main_v21_0, main_v21_1, main_v21_2] (body_obligation1 _) (V4_of m (outs m))
def reg2 := mkReg m 2 launch2 (V5 m (outs m)) (V6 m (outs m)) [main_v34_0, main_v34_1] (body_obligation2 _) (V6_of m (outs m))
def reg3 := mkReg m 3 launch3 (V7 m (outs m)) (V8 m (outs m)) [main_v65] (body_obligation3 _) (V8_of m (outs m))
def reg4 := mkReg m 4 launch4 (V9 m (outs m)) (V10 m (outs m)) [main_v69_0, main_v69_1] (body_obligation4 _) (V10_of m (outs m))
def reg5 := mkReg m 5 launch5 (V11 m (outs m)) (V12 m (outs m)) [main_v100] (body_obligation5 _) (V12_of m (outs m))

set_option backward.isDefEq.respectTransparency.types false in
set_option maxHeartbeats 4000000 in

/-- From any memory with zero counters every weakly fair execution of @main terminates without a fault, and the final memory holds each unscoped buffer of each core at the last item's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V13 m (outs m) c b) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m) (reg4 m) (reg5 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl,
      .rfl, .rfl, .rfl, .rfl,
      sep_mono .rfl (by iintro ⟨-, H⟩; iexact H)⟩)
    (hinit := by
      refine Pipeline.initEach L lv fun c => ?_
      rw [Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item of @main writes an argument array: a memory that agrees with the last contents holds each as launched. -/
theorem kept (c : Dev nD) {mem : (ℓ : Loc nD τ sig) → Buf (Elt F) ℓ}
    (h : ∀ b ∈ Pipeline.ucRefs τ sig, mem (((c : Thread nD τ)).1, b) = V13 m (outs m) c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17) := by
  and_intros <;> refine (h _ (mem_uc _ (by decide))).trans ?_
  exacts [V13_main_arg0 m (outs m) c, V13_main_arg1 m (outs m) c, V13_main_arg2 m (outs m) c, V13_main_arg3 m (outs m) c, V13_main_arg4 m (outs m) c, V13_main_arg5 m (outs m) c, V13_main_arg6 m (outs m) c, V13_main_arg7 m (outs m) c, V13_main_arg8 m (outs m) c, V13_main_arg9 m (outs m) c, V13_main_arg10 m (outs m) c, V13_main_arg11 m (outs m) c, V13_main_arg12 m (outs m) c, V13_main_arg13 m (outs m) c, V13_main_arg14 m (outs m) c, V13_main_arg15 m (outs m) c, V13_main_arg16 m (outs m) c, V13_main_arg17 m (outs m) c]

end Cert.Kernel.Hand

end
-- ==== Proof.KI.Reg0.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rNode : Rect S5000x64 := Rect.unit (s := S5000x64) ![0, 0] S5000x64.size inb_S5000x64_S5000x64_0_0
abbrev rWeight : Rect S64x256 := Rect.unit (s := S64x256) ![0, 0] S64x256.size inb_S64x256_S64x256_0_0
abbrev rBias : Rect S1x256 := Rect.unit (s := S1x256) ![0, 0] S1x256.size inb_S1x256_S1x256_0_0
abbrev rWide : Rect S5000x128 := Rect.unit (s := S5000x128) ![0, 0] S5000x128.size inb_S5000x128_S5000x128_0_0

def out0_3 (x0 : Vec F S5000x64 .f32) (x1 : Vec F S64x256 .f32) (x2 : Vec F S1x256 .f32) : Vec F S5000x128 .f32 :=
  View.canon [⟨rWide, k0_pay2 (View.ld x0 rNode) (View.ld x1 rWeight) (View.ld x2 rBias)⟩]

def out0_4 (x0 : Vec F S5000x64 .f32) (x1 : Vec F S64x256 .f32) (x2 : Vec F S1x256 .f32) : Vec F S5000x64 .f32 :=
  View.canon [⟨rNode, k0_pay3 (View.ld x0 rNode) (View.ld x1 rWeight) (View.ld x2 rBias)⟩]

def out0_5 (x0 : Vec F S5000x64 .f32) (x1 : Vec F S64x256 .f32) (x2 : Vec F S1x256 .f32) : Vec F S5000x64 .f32 :=
  View.canon [⟨rNode, k0_pay4 (View.ld x0 rNode) (View.ld x1 rWeight) (View.ld x2 rBias)⟩]

theorem cover0_3 (p : Vec F S5000x128 .f32) (y : S5000x128.Idx) :
    ∃ pc ∈ ([⟨rWide, p⟩] : List (View.Piece (Elt F) S5000x128 .f32)), y ∈ pc.1.set :=
  View.cover_of_tiled [⟨rWide, p⟩] S5000x128.size (by rfl) y

theorem cover0_4 (p : Vec F S5000x64 .f32) (y : S5000x64.Idx) :
    ∃ pc ∈ ([⟨rNode, p⟩] : List (View.Piece (Elt F) S5000x64 .f32)), y ∈ pc.1.set :=
  View.cover_of_tiled [⟨rNode, p⟩] S5000x64.size (by rfl) y

theorem sound_kernel0 (c : Dev nD) (E : Set ℕ) (i : grid0.Coords)
    (arg1 : Memref sig .tc .vmem S5000x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S5000x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton, owns_eq_rep]; unfold cc0__node_proj_kernel_skel
  iintro ⟨H0, H1, H2, ⟨%d3, H3⟩, ⟨%d4, H4⟩, ⟨%d5, H5⟩, Hk⟩
  sl_exec
  sl_step
  simp only [View.readAt_rep]
  iapply Hk
  iframe
  isplitl [H3]; rotate_left; isplitl [H4]; rotate_left
  all_goals (iapply rep_of_owns; unfold owns; iexists _; isplitr; swap; iassumption; ipureintro)
  all_goals first | exact View.read_writes_eq_canon _ _ _ (cover0_3 _) | exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0 (c : Dev nD) (t : Fin cfg0.N) : ∀ w : Fin cfg0.W, w.1 < 3 → ∀ d, (dat0 V c).before w t d = (dat0 V c).after w t
  | ⟨0, _⟩, _ | ⟨1, _⟩, _ | ⟨2, _⟩, _ => (dat0 V c).before_in_eq_fetched _ rfl (fun _ => rfl) (fun _ _ _ => rfl) (fun _ => rfl) t
  | ⟨_ + 3, _⟩, h => absurd h (Nat.not_lt.2 (Nat.le_add_left _ _))

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp (disch := decide) only [before0 V c t]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ _ _ _ _)
  iframe
  isplitl [H3]; · iexists _; iexact H3
  isplitl [H4]; · iexists _; iexact H4
  isplitl [H5]; · iexists _; iexact H5
  iintro ⟨H0, H1, H2, H3, H4, H5⟩
  iframe

end Cert.KernelIdeal.Hand

end
-- ==== Proof.KI.Reg1.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S4000x64 := Rect.unit (s := S4000x64) ![0, 0] S4000x64.size inb_S4000x64_S4000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

def out1_6 (x0 x1 x2 _ : Vec F S4000x64 .f32) (x4 : Vec F S64x64 .f32) (x5 : Vec F S1x64 .f32) : Vec F S4000x64 .f32 :=
  View.canon [⟨r1_e, k1_pay1 (View.ld x0 r1_e) (View.ld x4 r1_w) (View.ld x5 r1_b) (View.ld x1 r1_e) (View.ld x2 r1_e)⟩]

def out1_7 (x0 x1 x2 _ : Vec F S4000x64 .f32) (x4 : Vec F S64x64 .f32) (x5 : Vec F S1x64 .f32) : Vec F S4000x64 .f32 :=
  View.canon [⟨r1_e, k1_pay2 (View.ld x0 r1_e) (View.ld x4 r1_w) (View.ld x5 r1_b) (View.ld x1 r1_e) (View.ld x2 r1_e)⟩]

def out1_8 (x0 x1 x2 x3 : Vec F S4000x64 .f32) (x4 : Vec F S64x64 .f32) (x5 : Vec F S1x64 .f32) : Vec F S4000x64 .f32 :=
  View.canon [⟨r1_e, k1_pay3 (View.ld x0 r1_e) (View.ld x4 r1_w) (View.ld x5 r1_b) (View.ld x1 r1_e) (View.ld x2 r1_e) (View.ld x3 r1_e)⟩]

theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole) (arg9 : Memref sig .tc .vmem S4000x64 .f32) (harg9 : arg9.IsWhole)
    (x0 x1 x2 x3 : Vec F S4000x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton, owns_eq_rep]; unfold cc1__edge_kernel_skel
  iintro ⟨H0, H1, H2, H3, H4, H5, ⟨%d6, H6⟩, ⟨%d7, H7⟩, ⟨%d8, H8⟩, Hk⟩
  sl_exec
  sl_step
  simp only [View.readAt_rep]
  iapply Hk
  iframe
  isplitl [H6]; rotate_left; isplitl [H7]; rotate_left
  all_goals (iapply rep_of_owns; unfold owns; iexists _; isplitr; swap; iassumption; ipureintro)
  all_goals exact View.read_writes_eq_canon _ _ _ (View.cover_of_tiled _ S4000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]

theorem before1 (c : Dev nD) (t : Fin cfg1.N) : ∀ w : Fin cfg1.W, w.1 < 6 → ∀ d, (dat1 V c).before w t d = (dat1 V c).after w t
  | ⟨0, _⟩, _ | ⟨1, _⟩, _ | ⟨2, _⟩, _ | ⟨3, _⟩, _ | ⟨4, _⟩, _ | ⟨5, _⟩, _ =>
    (dat1 V c).before_in_eq_fetched _ rfl (fun _ => rfl) (fun _ _ _ => rfl) (fun _ => rfl) t
  | ⟨_ + 6, _⟩, h => absurd h (Nat.not_lt.2 (Nat.le_add_left _ _))

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c t]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  isplitl [H7]; · iexists _; iexact H7
  isplitl [H8]; · iexists _; iexact H8
  iintro ⟨H0, H1, H2, H3, H4, H5, H6, H7, H8⟩
  iframe

end Cert.KernelIdeal.Hand
-- ==== Proof.KI.Reg2.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

theorem off2 : (![0, 0] : Fin 2 → ℕ) = fun _ => 0 := funext fun a => by fin_cases a <;> rfl

-- The row rectangle starts at the origin with the buffer's own sizes, so any list of stores headed by one through it covers the buffer,
theorem cover2_1 (w : Vec F S1x128 .f32) (L : List (View.Piece (Elt F) S1x128 .f32)) (y : S1x128.Idx) :
    ∃ pc ∈ (⟨r2_1, w⟩ :: L), y ∈ pc.1.set :=
  ⟨_, List.mem_cons_self, View.mem_set_unit_zero off2 inb_S1x128_S1x128_0_0 y⟩

-- and that store hides every earlier one.
theorem canon2_last (w : Vec F S1x128 .f32) (L : List (View.Piece (Elt F) S1x128 .f32)) :
    View.canon (⟨r2_1, w⟩ :: L) = View.canon [⟨r2_1, w⟩] :=
  (View.canon_cons_unit_zero off2 inb_S1x128_S1x128_0_0 w L).trans (View.canon_unit_zero off2 inb_S1x128_S1x128_0_0 w).symm

def init2_1 : Vec F S1x128 .f32 := View.canon [⟨r2_1, k2_pay1 (F := F)⟩]
def init2_2 : Vec F S1x128 .f32 := View.canon [⟨r2_1, k2_pay2 (F := F)⟩]

def out2_1 (x0 : Vec F S10000x128 .f32) (a : Vec F S1x128 .f32) : Vec F S1x128 .f32 :=
  View.canon [⟨r2_1, k2_pay4 (View.ld x0 r2_0) (View.ld a r2_1)⟩]

def out2_2 (x0 : Vec F S10000x128 .f32) (a : Vec F S1x128 .f32) : Vec F S1x128 .f32 :=
  View.canon [⟨r2_1, k2_pay5 (View.ld x0 r2_0) (View.ld a r2_1)⟩]

abbrev cond2 (i : grid2.Coords) : Prop := (Scalar.cmpi .ne (Scalar.extui (Scalar.cmpi .eq (BitVec.ofNat 32 (i 0).val) 0#32)) 0#32) = 1#1

-- The body's branch is taken at the first point only.
theorem hcond2 : ∀ t : Fin cfg2.N, cond2 (grid2.coords t) ↔ t.val = 0 :=
  (by decide +kernel : ∀ t : Fin grid2.N, cond2 (grid2.coords t) ↔ t.val = 0)

section
variable (c : Dev nD) (E : Set ℕ) (i : grid2.Coords) (arg1 : Memref sig .tc .vmem S10000x128 .f32) (harg1 : arg1.IsWhole)
  (arg2 : Memref sig .tc .vmem S1x128 .f32) (harg2 : arg2.IsWhole) (arg3 : Memref sig .tc .vmem S1x128 .f32) (harg3 : arg3.IsWhole)

-- One triple for both branches: the rows added to are the zero rows at the first point (whatever the buffers held) and the buffers' own rows later.
theorem sound_kernel2 (x0 : Vec F S10000x128 .f32) (a1 a2 b1 b2 : Vec F S1x128 .f32)
    (hb : cond2 i ∧ b1 = init2_1 ∧ b2 = init2_2 ∨ ¬cond2 i ∧ b1 = a1 ∧ b2 = a2) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (out2_1 x0 b1)
            ∗ owns (c : Thread nD τ) arg3 fullShare (out2_2 x0 b2)) -∗ K ⟨⟩))
      ⊢ wp frame (wpE (defs₀ (F := F)) Variants.none c none) E (cc2__bn_stats_kernel i arg1 harg1 arg2 harg2 arg3 harg3) K := by
  simp only [cc2__bn_stats_kernel_eq_skeleton]; unfold cc2__bn_stats_kernel_skel owns
  rcases hb with ⟨hc, rfl, rfl⟩ | ⟨hc, rfl, rfl⟩ <;> (
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]; swap; isplitl [H1]
    all_goals iexists _; isplitr; swap; iassumption; ipureintro)
  iterate 2
    sl_unfold_run_names
    rw [View.read_writes_eq_canon _ _ _ (cover2_1 _ _), canon2_last, View.readCov_eq_canon_ld _ _ _ (cover2_1 _ _)]
    rfl
  rfl
  iterate 2 exact View.read_writes_eq_canon _ _ _ (cover2_1 _ _)
  rfl

end

-- What output window 1's buffer holds after the body at point n: the body's sum over the zero row at the first point, over the previous point's row later.
def acc2_1 (c : Dev nD) : (n : ℕ) → n < cfg2.N → Vec F S1x128 .f32
  | 0, hn => out2_1 (iblk2 V c 0 ⟨0, hn⟩) init2_1
  | n + 1, hn => out2_1 (iblk2 V c 0 ⟨n + 1, hn⟩) (acc2_1 c n (Nat.lt_of_succ_lt hn))

def acc2_2 (c : Dev nD) : (n : ℕ) → n < cfg2.N → Vec F S1x128 .f32
  | 0, hn => out2_2 (iblk2 V c 0 ⟨0, hn⟩) init2_2
  | n + 1, hn => out2_2 (iblk2 V c 0 ⟨n + 1, hn⟩) (acc2_2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => acc2_1 V c t.val t.isLt
    | ⟨2, _⟩ => acc2_2 V c t.val t.isLt
  Φ _ := Pipeline.ΦA spec2 c
  q _ := fullShare
  owed _ := 0

theorem after2_1 (c : Dev nD) (t : Fin cfg2.N) : (dat2 V c).after 1 t = acc2_1 V c t.val t.isLt := rfl
theorem after2_2 (c : Dev nD) (t : Fin cfg2.N) : (dat2 V c).after 2 t = acc2_2 V c t.val t.isLt := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem keep2 {w : Fin cfg2.W} (hf : ∀ t : Fin cfg2.N, (cfg2.win w).flush t = true ↔ t.val % 5 = 4) {n : ℕ} (hn : n + 1 < cfg2.N) :
    (cfg2.win w).flush ⟨n + 1 - 1, Nat.lt_of_le_of_lt (Nat.sub_le _ _) hn⟩ = false :=
  Bool.eq_false_iff.mpr fun h => by have := (hf _).mp h; have := lt_of_lt_of_eq hn N_2; dsimp only at *; omega

theorem before2_1_B (c : Dev nD) (n : ℕ) (hn : n + 1 < cfg2.N) (d) : (dat2 V c).before 1 ⟨n + 1, hn⟩ d = acc2_1 V c n (Nat.lt_of_succ_lt hn) :=
  Dat.before_out_kept _ 1 rfl _ n.succ_ne_zero (keep2 flush2_1 hn) (fun _ => rfl) (fun _ _ => rfl) d

theorem before2_2_B (c : Dev nD) (n : ℕ) (hn : n + 1 < cfg2.N) (d) : (dat2 V c).before 2 ⟨n + 1, hn⟩ d = acc2_2 V c n (Nat.lt_of_succ_lt hn) :=
  Dat.before_out_kept _ 2 rfl _ n.succ_ne_zero (keep2 flush2_2 hn) (fun _ => rfl) (fun _ _ => rfl) d

-- By cases on the point: the first one adds to the zero rows, a later one to the previous point's rows.
theorem body_obligation2 (c : Dev nD) : BodyObligation (dat2 (F := F) V c) (defs₀ (F := F)) Variants.none () Set.univ := fun t => by
  rw [bigSep_W2, bigSep_W2]
  change iprop(_ ∗ _ ∗ (∃ d, owns _ _ _ ((dat2 V c).before 0 t d)) ∗ (∃ d, owns _ _ _ ((dat2 V c).before 1 t d)) ∗ (∃ d, owns _ _ _ ((dat2 V c).before 2 t d)))
    ⊢ wp _ _ _ (bodyAt2 t) fun _ => iprop((dat2 V c).Φ t.castSucc ∗ (dat2 V c).owesAt () t.castSucc
      ∗ owns _ _ _ (iblk2 V c 0 t) ∗ owns _ _ _ (acc2_1 V c t.val t.isLt) ∗ owns _ _ _ (acc2_2 V c t.val t.isLt))
  rcases t with ⟨_ | n, hn⟩ <;> simp only [before2_0, before2_1_B, before2_2_B, acc2_1, acc2_2] <;>
    iintro ⟨HΦ, Ho, ⟨%d0, H0⟩, ⟨%d1, H1⟩, ⟨%d2, H2⟩⟩
  · iapply sound_kernel2 c Set.univ _ _ _ _ _ _ _ (iblk2 V c 0 _) _ _ _ _ (.inl ⟨(hcond2 _).mpr rfl, rfl, rfl⟩)
    iframe H0 H1 H2
    iintro H; iframe
  · iapply sound_kernel2 c Set.univ _ _ _ _ _ _ _ (iblk2 V c 0 _) _ _ _ _ (.inr ⟨fun h => n.succ_ne_zero ((hcond2 _).mp h), rfl, rfl⟩)
    iframe H0 H1 H2
    iintro H; iframe

end Cert.KernelIdeal.Hand

end
-- ==== Proof.KI.Reg3.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

def out3_6 (x0 x1 : Vec F S5000x128 .f32) (x2 x3 x4 x5 : Vec F S1x128 .f32) : Vec F S5000x128 .f32 :=
  View.canon [⟨r3_0, k3_pay1 (View.ld x0 r3_0) (View.ld x2 r3_1) (View.ld x3 r3_1) (View.ld x4 r3_1) (View.ld x5 r3_1) (View.ld x1 r3_0)⟩]

theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__apply_bn_silu_kernel i arg1 harg1 arg2 harg2 arg3 harg3 arg4 harg4 arg5 harg5 arg6 harg6 arg7 harg7) K := by
  simp only [cc3__apply_bn_silu_kernel_eq_skeleton, owns_eq_rep]; unfold cc3__apply_bn_silu_kernel_skel
  iintro ⟨H0, H1, H2, H3, H4, H5, ⟨%d6, H6⟩, Hk⟩
  sl_exec
  sl_step
  simp only [View.readAt_rep]
  iapply Hk
  iframe
  iapply rep_of_owns; unfold owns; iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3 (c : Dev nD) (t : Fin cfg3.N) : ∀ w : Fin cfg3.W, w ≠ 6 → ∀ d, (dat3 V c).before w t d = (dat3 V c).after w t
  | ⟨6, _⟩, hw => absurd rfl hw
  | ⟨0, _⟩, _ | ⟨1, _⟩, _ | ⟨2, _⟩, _ | ⟨3, _⟩, _ | ⟨4, _⟩, _ | ⟨5, _⟩, _ =>
    (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c t]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro ⟨H0, H1, H2, H3, H4, H5, H6⟩
  iframe

end Cert.KernelIdeal.Hand
-- ==== Proof.KI.Reg4.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8000x128 := Rect.unit (s := S8000x128) ![0, 0] S8000x128.size inb_S8000x128_S8000x128_0_0
abbrev r4_1 : Rect S1x128 := Rect.unit (s := S1x128) ![0, 0] S1x128.size inb_S1x128_S1x128_0_0

theorem off4 : (![0, 0] : Fin 2 → ℕ) = fun _ => 0 := funext fun a => by fin_cases a <;> rfl

-- The row rectangle starts at the origin with the buffer's own sizes, so any list of stores headed by one through it covers the buffer,
theorem cover4_1 (w : Vec F S1x128 .f32) (L : List (View.Piece (Elt F) S1x128 .f32)) (y : S1x128.Idx) :
    ∃ pc ∈ (⟨r4_1, w⟩ :: L), y ∈ pc.1.set :=
  ⟨_, List.mem_cons_self, View.mem_set_unit_zero off4 inb_S1x128_S1x128_0_0 y⟩

-- and that store hides every earlier one.
theorem canon4_last (w : Vec F S1x128 .f32) (L : List (View.Piece (Elt F) S1x128 .f32)) :
    View.canon (⟨r4_1, w⟩ :: L) = View.canon [⟨r4_1, w⟩] :=
  (View.canon_cons_unit_zero off4 inb_S1x128_S1x128_0_0 w L).trans (View.canon_unit_zero off4 inb_S1x128_S1x128_0_0 w).symm

def init4_1 : Vec F S1x128 .f32 := View.canon [⟨r4_1, k4_pay1 (F := F)⟩]
def init4_2 : Vec F S1x128 .f32 := View.canon [⟨r4_1, k4_pay2 (F := F)⟩]

def out4_1 (x0 : Vec F S8000x128 .f32) (a : Vec F S1x128 .f32) : Vec F S1x128 .f32 :=
  View.canon [⟨r4_1, k4_pay4 (View.ld x0 r4_0) (View.ld a r4_1)⟩]

def out4_2 (x0 : Vec F S8000x128 .f32) (a : Vec F S1x128 .f32) : Vec F S1x128 .f32 :=
  View.canon [⟨r4_1, k4_pay5 (View.ld x0 r4_0) (View.ld a r4_1)⟩]

abbrev cond4 (i : grid4.Coords) : Prop := (Scalar.cmpi .ne (Scalar.extui (Scalar.cmpi .eq (BitVec.ofNat 32 (i 0).val) 0#32)) 0#32) = 1#1

-- The body's branch is taken at the first point only.
theorem hcond4 : ∀ t : Fin cfg4.N, cond4 (grid4.coords t) ↔ t.val = 0 :=
  (by decide +kernel : ∀ t : Fin grid4.N, cond4 (grid4.coords t) ↔ t.val = 0)

section
variable (c : Dev nD) (E : Set ℕ) (i : grid4.Coords) (arg1 : Memref sig .tc .vmem S8000x128 .f32) (harg1 : arg1.IsWhole)
  (arg2 : Memref sig .tc .vmem S1x128 .f32) (harg2 : arg2.IsWhole) (arg3 : Memref sig .tc .vmem S1x128 .f32) (harg3 : arg3.IsWhole)

-- One triple for both branches: the rows added to are the zero rows at the first point (whatever the buffers held) and the buffers' own rows later.
theorem sound_kernel4 (x0 : Vec F S8000x128 .f32) (a1 a2 b1 b2 : Vec F S1x128 .f32)
    (hb : cond4 i ∧ b1 = init4_1 ∧ b2 = init4_2 ∨ ¬cond4 i ∧ b1 = a1 ∧ b2 = a2) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (out4_1 x0 b1)
            ∗ owns (c : Thread nD τ) arg3 fullShare (out4_2 x0 b2)) -∗ K ⟨⟩))
      ⊢ wp frame (wpE (defs₀ (F := F)) Variants.none c none) E (cc4__bn_stats_kernel i arg1 harg1 arg2 harg2 arg3 harg3) K := by
  simp only [cc4__bn_stats_kernel_eq_skeleton]; unfold cc4__bn_stats_kernel_skel owns
  rcases hb with ⟨hc, rfl, rfl⟩ | ⟨hc, rfl, rfl⟩ <;> (
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]; swap; isplitl [H1]
    all_goals iexists _; isplitr; swap; iassumption; ipureintro)
  iterate 2
    sl_unfold_run_names
    rw [View.read_writes_eq_canon _ _ _ (cover4_1 _ _), canon4_last, View.readCov_eq_canon_ld _ _ _ (cover4_1 _ _)]
    rfl
  rfl
  iterate 2 exact View.read_writes_eq_canon _ _ _ (cover4_1 _ _)
  rfl

end

-- What output window 1's buffer holds after the body at point n: the body's sum over the zero row at the first point, over the previous point's row later.
def acc4_1 (c : Dev nD) : (n : ℕ) → n < cfg4.N → Vec F S1x128 .f32
  | 0, hn => out4_1 (iblk4 V c 0 ⟨0, hn⟩) init4_1
  | n + 1, hn => out4_1 (iblk4 V c 0 ⟨n + 1, hn⟩) (acc4_1 c n (Nat.lt_of_succ_lt hn))

def acc4_2 (c : Dev nD) : (n : ℕ) → n < cfg4.N → Vec F S1x128 .f32
  | 0, hn => out4_2 (iblk4 V c 0 ⟨0, hn⟩) init4_2
  | n + 1, hn => out4_2 (iblk4 V c 0 ⟨n + 1, hn⟩) (acc4_2 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4_1 V c t.val t.isLt
    | ⟨2, _⟩ => acc4_2 V c t.val t.isLt
  Φ _ := Pipeline.ΦA spec4 c
  q _ := fullShare
  owed _ := 0

theorem after4_1 (c : Dev nD) (t : Fin cfg4.N) : (dat4 V c).after 1 t = acc4_1 V c t.val t.isLt := rfl
theorem after4_2 (c : Dev nD) (t : Fin cfg4.N) : (dat4 V c).after 2 t = acc4_2 V c t.val t.isLt := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d

theorem keep4 {w : Fin cfg4.W} (hf : ∀ t : Fin cfg4.N, (cfg4.win w).flush t = true ↔ t.val % 100 = 99) {n : ℕ} (hn : n + 1 < cfg4.N) :
    (cfg4.win w).flush ⟨n + 1 - 1, Nat.lt_of_le_of_lt (Nat.sub_le _ _) hn⟩ = false :=
  Bool.eq_false_iff.mpr fun h => by have := (hf _).mp h; have := lt_of_lt_of_eq hn N_4; dsimp only at *; omega

theorem before4_1_B (c : Dev nD) (n : ℕ) (hn : n + 1 < cfg4.N) (d) : (dat4 V c).before 1 ⟨n + 1, hn⟩ d = acc4_1 V c n (Nat.lt_of_succ_lt hn) :=
  Dat.before_out_kept _ 1 rfl _ n.succ_ne_zero (keep4 flush4_1 hn) (fun _ => rfl) (fun _ _ => rfl) d

theorem before4_2_B (c : Dev nD) (n : ℕ) (hn : n + 1 < cfg4.N) (d) : (dat4 V c).before 2 ⟨n + 1, hn⟩ d = acc4_2 V c n (Nat.lt_of_succ_lt hn) :=
  Dat.before_out_kept _ 2 rfl _ n.succ_ne_zero (keep4 flush4_2 hn) (fun _ => rfl) (fun _ _ => rfl) d

-- By cases on the point: the first one adds to the zero rows, a later one to the previous point's rows.
theorem body_obligation4 (c : Dev nD) : BodyObligation (dat4 (F := F) V c) (defs₀ (F := F)) Variants.none () Set.univ := fun t => by
  rw [bigSep_W4, bigSep_W4]
  change iprop(_ ∗ _ ∗ (∃ d, owns _ _ _ ((dat4 V c).before 0 t d)) ∗ (∃ d, owns _ _ _ ((dat4 V c).before 1 t d)) ∗ (∃ d, owns _ _ _ ((dat4 V c).before 2 t d)))
    ⊢ wp _ _ _ (bodyAt4 t) fun _ => iprop((dat4 V c).Φ t.castSucc ∗ (dat4 V c).owesAt () t.castSucc
      ∗ owns _ _ _ (iblk4 V c 0 t) ∗ owns _ _ _ (acc4_1 V c t.val t.isLt) ∗ owns _ _ _ (acc4_2 V c t.val t.isLt))
  rcases t with ⟨_ | n, hn⟩ <;> simp only [before4_0, before4_1_B, before4_2_B, acc4_1, acc4_2] <;>
    iintro ⟨HΦ, Ho, ⟨%d0, H0⟩, ⟨%d1, H1⟩, ⟨%d2, H2⟩⟩
  · iapply sound_kernel4 c Set.univ _ _ _ _ _ _ _ (iblk4 V c 0 _) _ _ _ _ (.inl ⟨(hcond4 _).mpr rfl, rfl, rfl⟩)
    iframe H0 H1 H2
    iintro H; iframe
  · iapply sound_kernel4 c Set.univ _ _ _ _ _ _ _ (iblk4 V c 0 _) _ _ _ _ (.inr ⟨fun h => n.succ_ne_zero ((hcond4 _).mp h), rfl, rfl⟩)
    iframe H0 H1 H2
    iintro H; iframe

end Cert.KernelIdeal.Hand

end
-- ==== Proof.KI.Reg5.lean ====
import proofs.«419296_j32031866093810_3_alg».proof.Proof.Gen.KernelIdeal.Launch
import proofs.«419296_j32031866093810_3_alg».proof.Proof.Gen.KernelIdeal.Skeleton
import proofs.«419296_j32031866093810_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8000x128 := Rect.unit (s := S8000x128) ![0, 0] S8000x128.size inb_S8000x128_S8000x128_0_0
abbrev r5_1 : Rect S1x128 := Rect.unit (s := S1x128) ![0, 0] S1x128.size inb_S1x128_S1x128_0_0

def out5_6 (x0 x1 : Vec F S8000x128 .f32) (x2 x3 x4 x5 : Vec F S1x128 .f32) : Vec F S8000x128 .f32 :=
  View.canon [⟨r5_0, k5_pay1 (View.ld x0 r5_0) (View.ld x2 r5_1) (View.ld x3 r5_1) (View.ld x4 r5_1) (View.ld x5 r5_1) (View.ld x1 r5_0)⟩]

theorem cover5_6 (p0 : Vec F S8000x128 .f32) (y : S8000x128.Idx) :
    ∃ pc ∈ ([⟨r5_0, p0⟩] : List (View.Piece (Elt F) S8000x128 .f32)), y ∈ pc.1.set :=
  View.cover_of_tiled [⟨r5_0, p0⟩] S8000x128.size (by rfl) y

theorem sound_kernel5 (c : Dev nD) (E : Set ℕ) (i : grid5.Coords) (arg1 : Memref sig .tc .vmem S8000x128 .f32) (harg1 : arg1.IsWhole) (arg2 : Memref sig .tc .vmem S8000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8000x128 .f32) (harg7 : arg7.IsWhole)
    (x0 x1 : Vec F S8000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__apply_bn_silu_kernel i arg1 harg1 arg2 harg2 arg3 harg3 arg4 harg4 arg5 harg5 arg6 harg6 arg7 harg7) K := by
  simp only [cc5__apply_bn_silu_kernel_eq_skeleton, owns_eq_rep]; unfold cc5__apply_bn_silu_kernel_skel
  iintro ⟨H0, H1, H2, H3, H4, H5, ⟨%d6, H6⟩, Hk⟩
  sl_exec
  sl_step
  simp only [View.readAt_rep]
  iapply Hk
  iframe
  iapply rep_of_owns; unfold owns; iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin cfg5.W, w ≠ 6 → ∀ d, (dat5 V c).before w t d = (dat5 V c).after w t
  | ⟨6, _⟩, hw => absurd rfl hw
  | ⟨0, _⟩, _ | ⟨1, _⟩, _ | ⟨2, _⟩, _ | ⟨3, _⟩, _ | ⟨4, _⟩, _ | ⟨5, _⟩, _ =>
    (dat5 V c).before_in_eq_fetched _ rfl (fun _ => rfl) (fun _ _ _ => rfl) (fun _ => rfl) t

theorem body_obligation5 (c : Dev nD) : BodyObligation (dat5 (F := F) V c) (defs₀ (F := F)) Variants.none () Set.univ := fun t => by
  rw [bigSep_W5, bigSep_W5, show (dat5 V c).owesAt () t.succ = (dat5 V c).owesAt () t.castSucc from rfl]
  simp (disch := decide) only [before5 V c t]
  dsimp only [dat5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  iframe
  isplitl [H6]; · iexists _; iexact H6
  iintro ⟨H0, H1, H2, H3, H4, H5, H6⟩
  iframe

end Cert.KernelIdeal.Hand
-- ==== Proof.KI.Run.lean ====
import proofs.«419296_j32031866093810_3_alg».proof.Proof.KI.Reg0
import proofs.«419296_j32031866093810_3_alg».proof.Proof.KI.Reg1
import proofs.«419296_j32031866093810_3_alg».proof.Proof.KI.Reg2
import proofs.«419296_j32031866093810_3_alg».proof.Proof.KI.Reg3
import proofs.«419296_j32031866093810_3_alg».proof.Proof.KI.Reg4
import proofs.«419296_j32031866093810_3_alg».proof.Proof.KI.Reg5
import proofs.«419296_j32031866093810_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b

/-- The buffer contents after each region, one stage at a time: the region's arrays at the fold of its write-backs over its entry contents, the earlier stages kept. -/
def o2 : Outs (F := F) := fun J r c => match J with
  | _ => Pipeline.withArrays spec0 c (V1 m c) (fun w => (dat0 (atTc (V1 m)) c).arrAt w cfg0.N) (Proc.devRef .tc r)

def o4 : Outs (F := F) := fun J r c => match J with
  | 2 => o2 m 2 r c
  | _ => Pipeline.withArrays spec1 c (V3 m (o2 m) c) (fun w => (dat1 (atTc (V3 m (o2 m))) c).arrAt w cfg1.N) (Proc.devRef .tc r)

def o6 : Outs (F := F) := fun J r c => match J with
  | 2 => o2 m 2 r c
  | 4 => o4 m 4 r c
  | _ => Pipeline.withArrays spec2 c (V5 m (o4 m) c) (fun w => (dat2 (atTc (V5 m (o4 m))) c).arrAt w cfg2.N) (Proc.devRef .tc r)

def o8 : Outs (F := F) := fun J r c => match J with
  | 2 => o2 m 2 r c
  | 4 => o4 m 4 r c
  | 6 => o6 m 6 r c
  | _ => Pipeline.withArrays spec3 c (V7 m (o6 m) c) (fun w => (dat3 (atTc (V7 m (o6 m))) c).arrAt w cfg3.N) (Proc.devRef .tc r)

def o10 : Outs (F := F) := fun J r c => match J with
  | 2 => o2 m 2 r c
  | 4 => o4 m 4 r c
  | 6 => o6 m 6 r c
  | 8 => o8 m 8 r c
  | _ => Pipeline.withArrays spec4 c (V9 m (o8 m) c) (fun w => (dat4 (atTc (V9 m (o8 m))) c).arrAt w cfg4.N) (Proc.devRef .tc r)

def outs : Outs (F := F) := fun J r c => match J with
  | 2 => o2 m 2 r c
  | 4 => o4 m 4 r c
  | 6 => o6 m 6 r c
  | 8 => o8 m 8 r c
  | 10 => o10 m 10 r c
  | _ => Pipeline.withArrays spec5 c (V11 m (o10 m) c) (fun w => (dat5 (atTc (V11 m (o10 m))) c).arrAt w cfg5.N) (Proc.devRef .tc r)

/-- Each region's data, read off the contents the region is entered from. -/
def pdats : (p : Fin 6) → (c : Dev nD) → Dat τ (Elt F) Unit ℕ (UR sig nD τ) ℕ (cfgs p) c
  | ⟨0, _⟩ => fun c => dat0 (atTc (V1 m)) c
  | ⟨1, _⟩ => fun c => dat1 (atTc (V3 m (o2 m))) c
  | ⟨2, _⟩ => fun c => dat2 (atTc (V5 m (o4 m))) c
  | ⟨3, _⟩ => fun c => dat3 (atTc (V7 m (o6 m))) c
  | ⟨4, _⟩ => fun c => dat4 (atTc (V9 m (o8 m))) c
  | ⟨5, _⟩ => fun c => dat5 (atTc (V11 m (o10 m))) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem outs_2 (r : Ref sig .tc) (c : Dev nD) : outs m 2 r c = Pipeline.withArrays spec0 c (V1 m c) (fun w => (dat0 (atTc (V1 m)) c).arrAt w cfg0.N) (Proc.devRef .tc r) := rfl
theorem outs_4 (r : Ref sig .tc) (c : Dev nD) : outs m 4 r c = Pipeline.withArrays spec1 c (V3 m (o2 m) c) (fun w => (dat1 (atTc (V3 m (o2 m))) c).arrAt w cfg1.N) (Proc.devRef .tc r) := rfl
theorem outs_6 (r : Ref sig .tc) (c : Dev nD) : outs m 6 r c = Pipeline.withArrays spec2 c (V5 m (o4 m) c) (fun w => (dat2 (atTc (V5 m (o4 m))) c).arrAt w cfg2.N) (Proc.devRef .tc r) := rfl
theorem outs_8 (r : Ref sig .tc) (c : Dev nD) : outs m 8 r c = Pipeline.withArrays spec3 c (V7 m (o6 m) c) (fun w => (dat3 (atTc (V7 m (o6 m))) c).arrAt w cfg3.N) (Proc.devRef .tc r) := rfl
theorem outs_10 (r : Ref sig .tc) (c : Dev nD) : outs m 10 r c = Pipeline.withArrays spec4 c (V9 m (o8 m) c) (fun w => (dat4 (atTc (V9 m (o8 m))) c).arrAt w cfg4.N) (Proc.devRef .tc r) := rfl
theorem outs_12 (r : Ref sig .tc) (c : Dev nD) : outs m 12 r c = Pipeline.withArrays spec5 c (V11 m (o10 m) c) (fun w => (dat5 (atTc (V11 m (o10 m))) c).arrAt w cfg5.N) (Proc.devRef .tc r) := rfl

/-- A region's exit contents from its entry contents: an array the region does not write is a read-only window's and keeps its entry contents, a written one holds the fold of its write-backs, and every other buffer is as at the entry. -/
theorem exit_of {p : Fin 6} (lf : Pipeline.LaunchFacts (nD := nD) (τ := τ) cfgs p) (c : Dev nD) (Vi Vo : Valuation τ sig (Elt F))
    (wr : List (Ref sig .tc)) (hA : ∀ w, (pdats m p c).A w = Vi (Pipeline.arrRef (cfgs p).spec w))
    (hof : ∀ r : Ref sig .tc, r ∉ wr → Vo r = Vi r)
    (hat : ∀ r ∈ wr, Vo r = Pipeline.withArrays (cfgs p).spec c Vi (fun w => (pdats m p c).arrAt w (cfgs p).N) (Proc.devRef .tc r))
    (hin : ∀ w, Pipeline.arrRef (cfgs p).spec w ∉ wr → ((cfgs p).win w).isOut = false)
    (hsub : ∀ r ∈ wr, r ∈ Finset.univ.image (Pipeline.arrRef (cfgs p).spec)) :
    (∀ w, (pdats m p c).arrAt w (cfgs p).N = Vo (Pipeline.arrRef (cfgs p).spec w))
      ∧ ∀ b : Ref sig .tc, b ∉ Finset.univ.image (Pipeline.arrRef (cfgs p).spec) → Vo b = Vi b :=
  ⟨fun w => if h : Pipeline.arrRef (cfgs p).spec w ∈ wr
      then ((hat _ h).trans (Pipeline.withArrays_arr _ lf.win.arr_inj c Vi _ w)).symm
      else ((pdats m p c).arrAt_in w (hin w h) _).trans ((hA w).trans (hof _ h).symm),
    fun b hb => hof b fun h => hb (hsub b h)⟩

set_option backward.isDefEq.respectTransparency.types false in

/-- A region entered with every buffer at the contents `Vi` and left with them at `Vo`; what `exit_of` asks of the two, and the shape of the region's data, hold by unfolding. -/
def mkReg (p : Fin 6) (lf : Pipeline.LaunchFacts (nD := nD) (τ := τ) cfgs p) (Vi Vo : Dev nD → Valuation τ sig (Elt F)) (wr : List (Ref sig .tc))
    (hbody : ∀ c, BodyObligation (pdats m p c) (defs₀ (F := F)) Variants.none () Set.univ)
    (hof : ∀ c (r : Ref sig .tc), r ∉ wr → Vo c r = Vi c r)
    (hΦ : ∀ c, (pdats m p c).Φ = fun _ => Pipeline.ΦA (cfgs p).spec c := by intros; rfl)
    (hq : ∀ c w, (pdats m p c).q w = fullShare := by intros; rfl) (howed : ∀ c, (pdats m p c).owed = fun _ => 0 := by intros; rfl)
    (hrec : ∀ c, (pdats m p c).recorded = fun _ => Set.univ := by intros; rfl)
    (hA : ∀ c w, (pdats m p c).A w = atTc Vi c (Pipeline.arrRef (cfgs p).spec w) := by intros; rfl)
    (hat : ∀ c, ∀ r ∈ wr, Vo c r = Pipeline.withArrays (cfgs p).spec c (Vi c) (fun w => (pdats m p c).arrAt w (cfgs p).N) (Proc.devRef .tc r) := by
      intro c r h; fin_cases h <;> rfl)
    (hin : ∀ w, Pipeline.arrRef (cfgs p).spec w ∉ wr → ((cfgs p).win w).isOut = false := by decide)
    (hsub : ∀ r ∈ wr, r ∈ Finset.univ.image (Pipeline.arrRef (cfgs p).spec) := by decide) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c t => congrFun (howed c) t
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hex := exit_of m lf c (Vi c) (Vo c) wr (hA c) (hof c) (hat c) hin hsub
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) hex.1 hex.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := mkReg m 0 launch0 (V1 m) (V2 m (outs m)) [main_v3_0, main_v3_1, main_v3_2] (body_obligation0 _) (V2_of m (outs m))
def reg1 := mkReg m 1 launch1 (V3 m (outs m)) (V4 m (outs m)) [main_v21_0, main_v21_1, main_v21_2] (body_obligation1 _) (V4_of m (outs m))
def reg2 := mkReg m 2 launch2 (V5 m (outs m)) (V6 m (outs m)) [main_v34_0, main_v34_1] (body_obligation2 _) (V6_of m (outs m))
def reg3 := mkReg m 3 launch3 (V7 m (outs m)) (V8 m (outs m)) [main_v65] (body_obligation3 _) (V8_of m (outs m))
def reg4 := mkReg m 4 launch4 (V9 m (outs m)) (V10 m (outs m)) [main_v69_0, main_v69_1] (body_obligation4 _) (V10_of m (outs m))
def reg5 := mkReg m 5 launch5 (V11 m (outs m)) (V12 m (outs m)) [main_v100] (body_obligation5 _) (V12_of m (outs m))

set_option backward.isDefEq.respectTransparency.types false in
set_option maxHeartbeats 4000000 in

/-- From any memory with zero counters every weakly fair execution of @main terminates without a fault, and the final memory holds each unscoped buffer of each core at the last item's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V13 m (outs m) c b) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m) (reg4 m) (reg5 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl,
      .rfl, .rfl, .rfl, .rfl,
      sep_mono .rfl (by iintro ⟨-, H⟩; iexact H)⟩)
    (hinit := by
      refine Pipeline.initEach L lv fun c => ?_
      rw [Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item of @main writes an argument array: a memory that agrees with the last contents holds each as launched. -/
theorem kept (c : Dev nD) {mem : (ℓ : Loc nD τ sig) → Buf (Elt F) ℓ}
    (h : ∀ b ∈ Pipeline.ucRefs τ sig, mem (((c : Thread nD τ)).1, b) = V13 m (outs m) c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17) := by
  and_intros <;> refine (h _ (mem_uc _ (by decide))).trans ?_
  exacts [V13_main_arg0 m (outs m) c, V13_main_arg1 m (outs m) c, V13_main_arg2 m (outs m) c, V13_main_arg3 m (outs m) c, V13_main_arg4 m (outs m) c, V13_main_arg5 m (outs m) c, V13_main_arg6 m (outs m) c, V13_main_arg7 m (outs m) c, V13_main_arg8 m (outs m) c, V13_main_arg9 m (outs m) c, V13_main_arg10 m (outs m) c, V13_main_arg11 m (outs m) c, V13_main_arg12 m (outs m) c, V13_main_arg13 m (outs m) c, V13_main_arg14 m (outs m) c, V13_main_arg15 m (outs m) c, V13_main_arg16 m (outs m) c, V13_main_arg17 m (outs m) c]

end Cert.KernelIdeal.Hand

end
-- ==== Proof.Ref.Stages.lean ====
import proofs.«419296_j32031866093810_3_alg».proof.ReferenceIdeal
import proofs.«419296_j32031866093810_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def fillN (b : BitVec 32) : FVec F S100000x64 .f32 :=
  broadcastInDim S100000x64 ![] bcast_S_S100000x64 (constant S_ .f32 b)

def fillE (b : BitVec 32) : FVec F S1600000x64 .f32 :=
  broadcastInDim S1600000x64 ![] bcast_S_S1600000x64 (constant S_ .f32 b)

def fillC (b : BitVec 32) : FVec F S64 .f32 :=
  broadcastInDim S64 ![] bcast_S_S64 (constant S_ .f32 b)

def rowsN (v : FVec F S64 .f32) : FVec F S100000x64 .f32 :=
  broadcastInDim S100000x64 ![0, 1] bcast_S1x64_S100000x64_0_1 (broadcastInDim S1x64 ![1] bcast_S64_S1x64_1 v)

def rowsE (v : FVec F S64 .f32) : FVec F S1600000x64 .f32 :=
  broadcastInDim S1600000x64 ![0, 1] bcast_S1x64_S1600000x64_0_1 (broadcastInDim S1x64 ![1] bcast_S64_S1x64_1 v)

def linN (x : FVec F S100000x64 .f32) (w : FVec F S64x64 .f32) (b : FVec F S64 .f32) : FVec F S100000x64 .f32 :=
  addf (Host.dotGeneral dot_S100000x64_S64x64_S100000x64_1_0_0_1_n_n none x w) (rowsN b)

def linE (e : FVec F S1600000x64 .f32) (w : FVec F S64x64 .f32) (b : FVec F S64 .f32) : FVec F S1600000x64 .f32 :=
  addf (Host.dotGeneral dot_S1600000x64_S64x64_S1600000x64_1_0_0_1_n_n none e w) (rowsE b)

def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

def colIdx (i : IVec S1600000 32) : IVec S1600000x1 32 :=
  broadcastInDim S1600000x1 ![0] bcast_S1600000_S1600000x1_0 i

def takeRows (x : FVec F S100000x64 .f32) (i : IVec S1600000 32) : FVec F S1600000x64 .f32 :=
  Host.gather gather_S100000x64_S1600000x1_S1600000x64_1_0_n_n_0_1_164 x (colIdx (wrapIdx i))

def gate (z : FVec F S1600000x64 .f32) : FVec F S1600000x64 .f32 :=
  Host.divf (fillE 0x3F800000#32) (addf (fillE 0x3F800000#32) (Host.exp (Host.negf z)))

def sumInto (i : IVec S1600000 32) (u : FVec F S1600000x64 .f32) : FVec F S100000x64 .f32 :=
  Host.scatterAdd scatter_S100000x64_S1600000x1_S1600000x64_1_0_0_1 (fillN 0x00000000#32) (colIdx i) u

def meanN (h : FVec F S100000x64 .f32) : FVec F S64 .f32 :=
  Host.divf (Host.reduceAdd h (constant S_ .f32 0x00000000#32) reducesTo_S100000x64_S64_d0 h_S_) (fillC 0x47C35000#32)

def meanE (z : FVec F S1600000x64 .f32) : FVec F S64 .f32 :=
  Host.divf (Host.reduceAdd z (constant S_ .f32 0x00000000#32) reducesTo_S1600000x64_S64_d0 h_S_) (fillC 0x49C35000#32)

def dofOf (count : BitVec 32) : FVec F S_ .f32 :=
  subf (constant S_ .f32 count) (sitofp (F := F) .f32 (constantI S_ 32 0#32))

def centredN (h : FVec F S100000x64 .f32) : FVec F S100000x64 .f32 :=
  subf h (broadcastInDim S100000x64 ![0, 1] bcast_S1x64_S100000x64_0_1
    (Host.divf (broadcastInDim S1x64 ![1] bcast_S64_S1x64_1
        (Host.reduceAdd h (constant S_ .f32 0x00000000#32) reducesTo_S100000x64_S64_d0 h_S_))
      (broadcastInDim S1x64 ![] bcast_S_S1x64 (constant S_ .f32 0x47C35000#32))))

def centredE (z : FVec F S1600000x64 .f32) : FVec F S1600000x64 .f32 :=
  subf z (broadcastInDim S1600000x64 ![0, 1] bcast_S1x64_S1600000x64_0_1
    (Host.divf (broadcastInDim S1x64 ![1] bcast_S64_S1x64_1
        (Host.reduceAdd z (constant S_ .f32 0x00000000#32) reducesTo_S1600000x64_S64_d0 h_S_))
      (broadcastInDim S1x64 ![] bcast_S_S1x64 (constant S_ .f32 0x49C35000#32))))

def varN (h : FVec F S100000x64 .f32) : FVec F S64 .f32 :=
  select (broadcastInDim S64 ![] bcast_S_S64 (cmpf (F := F) .ogt (dofOf 0x47C35000#32) (constant S_ .f32 0x00000000#32)))
    (Host.divf (Host.reduceAdd (mulf (centredN h) (centredN h)) (constant S_ .f32 0x00000000#32) reducesTo_S100000x64_S64_d0 h_S_)
      (broadcastInDim S64 ![] bcast_S_S64 (dofOf 0x47C35000#32)))
    (broadcastInDim S64 ![] bcast_S_S64 (id (constant S_ .f32 0x7FC00000#32)))

def varE (z : FVec F S1600000x64 .f32) : FVec F S64 .f32 :=
  select (broadcastInDim S64 ![] bcast_S_S64 (cmpf (F := F) .ogt (dofOf 0x49C35000#32) (constant S_ .f32 0x00000000#32)))
    (Host.divf (Host.reduceAdd (mulf (centredE z) (centredE z)) (constant S_ .f32 0x00000000#32) reducesTo_S1600000x64_S64_d0 h_S_)
      (broadcastInDim S64 ![] bcast_S_S64 (dofOf 0x49C35000#32)))
    (broadcastInDim S64 ![] bcast_S_S64 (id (constant S_ .f32 0x7FC00000#32)))

def normN (h : FVec F S100000x64 .f32) (μ v γ β : FVec F S64 .f32) : FVec F S100000x64 .f32 :=
  addf (mulf (mulf (subf h (rowsN μ)) (rowsN (Host.rsqrt (addf v (fillC 0x3727C5AC#32))))) (rowsN γ)) (rowsN β)

def normE (z : FVec F S1600000x64 .f32) (μ v γ β : FVec F S64 .f32) : FVec F S1600000x64 .f32 :=
  addf (mulf (mulf (subf z (rowsE μ)) (rowsE (Host.rsqrt (addf v (fillC 0x3727C5AC#32))))) (rowsE γ)) (rowsE β)

def siluN (x : FVec F S100000x64 .f32) : FVec F S100000x64 .f32 :=
  mulf x (Host.divf (fillN 0x3F800000#32) (addf (fillN 0x3F800000#32) (Host.exp (Host.negf x))))

def siluE (x : FVec F S1600000x64 .f32) : FVec F S1600000x64 .f32 :=
  mulf x (Host.divf (fillE 0x3F800000#32) (addf (fillE 0x3F800000#32) (Host.exp (Host.negf x))))

structure Inputs (F : FTy → Type) where
  nodes : FVec F S100000x64 .f32
  edges : FVec F S1600000x64 .f32
  src : IVec S1600000 32
  dst : IVec S1600000 32
  wSrcGate : FVec F S64x64 .f32
  bSrcGate : FVec F S64 .f32
  wDstGate : FVec F S64x64 .f32
  bDstGate : FVec F S64 .f32
  wEdgeGate : FVec F S64x64 .f32
  bEdgeGate : FVec F S64 .f32
  wSrcUpd : FVec F S64x64 .f32
  bSrcUpd : FVec F S64 .f32
  wDstUpd : FVec F S64x64 .f32
  bDstUpd : FVec F S64 .f32
  gammaN : FVec F S64 .f32
  betaN : FVec F S64 .f32
  gammaE : FVec F S64 .f32
  betaE : FVec F S64 .f32

def eSrc (a : Inputs F) : FVec F S100000x64 .f32 := linN a.nodes a.wSrcGate a.bSrcGate

def eDst (a : Inputs F) : FVec F S100000x64 .f32 := linN a.nodes a.wDstGate a.bDstGate

def gathered (a : Inputs F) : FVec F S1600000x64 .f32 := addf (takeRows (eSrc a) a.src) (takeRows (eDst a) a.dst)

def gateLogits (a : Inputs F) : FVec F S1600000x64 .f32 := addf (gathered a) (linE a.edges a.wEdgeGate a.bEdgeGate)

def sigma (a : Inputs F) : FVec F S1600000x64 .f32 := gate (gateLogits a)

def bh (a : Inputs F) : FVec F S100000x64 .f32 := linN a.nodes a.wDstUpd a.bDstUpd

def sumSigmaH (a : Inputs F) : FVec F S100000x64 .f32 := sumInto a.dst (mulf (takeRows (bh a) a.src) (sigma a))

def sumSigma (a : Inputs F) : FVec F S100000x64 .f32 := sumInto a.dst (sigma a)

def agg (a : Inputs F) : FVec F S100000x64 .f32 := Host.divf (sumSigmaH a) (addf (sumSigma a) (fillN 0x358637BD#32))

def xPre (a : Inputs F) : FVec F S100000x64 .f32 := addf (linN a.nodes a.wSrcUpd a.bSrcUpd) (agg a)

def xNorm (a : Inputs F) : FVec F S100000x64 .f32 := normN (xPre a) (meanN (xPre a)) (varN (xPre a)) a.gammaN a.betaN

def out0 (a : Inputs F) : FVec F S100000x64 .f32 := addf a.nodes (siluN (xNorm a))

def yNorm (a : Inputs F) : FVec F S1600000x64 .f32 := normE (gateLogits a) (meanE (gateLogits a)) (varE (gateLogits a)) a.gammaE a.betaE

def out1 (a : Inputs F) : FVec F S1600000x64 .f32 := addf a.edges (siluE (yNorm a))

def inputsOf (V : Valuation τ sig (Elt F)) : Inputs F where
  nodes := V (Proc.devRef .tc main_arg0)
  edges := V (Proc.devRef .tc main_arg1)
  src := V (Proc.devRef .tc main_arg2)
  dst := V (Proc.devRef .tc main_arg3)
  wSrcGate := V (Proc.devRef .tc main_arg4)
  bSrcGate := V (Proc.devRef .tc main_arg5)
  wDstGate := V (Proc.devRef .tc main_arg6)
  bDstGate := V (Proc.devRef .tc main_arg7)
  wEdgeGate := V (Proc.devRef .tc main_arg8)
  bEdgeGate := V (Proc.devRef .tc main_arg9)
  wSrcUpd := V (Proc.devRef .tc main_arg10)
  bSrcUpd := V (Proc.devRef .tc main_arg11)
  wDstUpd := V (Proc.devRef .tc main_arg12)
  bDstUpd := V (Proc.devRef .tc main_arg13)
  gammaN := V (Proc.devRef .tc main_arg14)
  betaN := V (Proc.devRef .tc main_arg15)
  gammaE := V (Proc.devRef .tc main_arg16)
  betaE := V (Proc.devRef .tc main_arg17)

def inputs (m : (ℓ : Loc nD τ sig) → Buf (Elt F) ℓ) (c : Dev nD) : Inputs F := inputsOf (launchContents m c)

def res0 (m : (ℓ : Loc nD τ sig) → Buf (Elt F) ℓ) (c : Dev nD) : FVec F S100000x64 .f32 := out0 (inputs m c)

def res1 (m : (ℓ : Loc nD τ sig) → Buf (Elt F) ℓ) (c : Dev nD) : FVec F S1600000x64 .f32 := out1 (inputs m c)

end Cert.ReferenceIdeal.Hand

end
-- ==== Proof.Ref.Run.lean ====
import proofs.«419296_j32031866093810_3_alg».proof.Proof.Ref.Stages
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev argRefs : List (Ref sig .tc) :=
  [main_arg0, main_arg1, main_arg2, main_arg3, main_arg4, main_arg5, main_arg6, main_arg7, main_arg8,
   main_arg9, main_arg10, main_arg11, main_arg12, main_arg13, main_arg14, main_arg15, main_arg16, main_arg17]

/-- Every operation of `l` touches only references in `tcRefs`, allocates nothing, and writes inside `w`. -/
def Line (l : List (HloOp τ sig (Elt F))) (w : List (Ref sig .tc)) : Prop :=
  l.Forall fun op => (op.bufs ⊆ tcRefs τ sig ∧ op.fresh = ∅) ∧ op.writes ⊆ (w.map (Proc.devRef (τ := τ) .tc)).toFinset

theorem Line.ok {l : List (HloOp τ sig (Elt F))} {w : List (Ref sig .tc)} (h : Line l w) :
    ∀ op ∈ l, op.bufs ⊆ tcRefs τ sig ∧ op.fresh = ∅ := fun op ho => (List.forall_iff_forall_mem.mp h op ho).1

theorem Line.keep {l : List (HloOp τ sig (Elt F))} {w : List (Ref sig .tc)} (h : Line l w) (V : Valuation τ sig (Elt F))
    {r : Ref sig .tc} (hr : r ∉ w) : after l V (Proc.devRef .tc r) = V (Proc.devRef .tc r) :=
  after_of_writes_sub l V (List.Forall.imp (fun _ h => h.2) h) hr

/-- A line that writes no argument hands every argument on as it found it. -/
theorem Line.arg {l : List (HloOp τ sig (Elt F))} {w : List (Ref sig .tc)} (hl : Line l w) (hw : ∀ r ∈ argRefs, r ∉ w)
    {V V' : Valuation τ sig (Elt F)} {r : Ref sig .tc} (h : r ∈ argRefs) (hV : V (Proc.devRef .tc r) = V' (Proc.devRef .tc r)) :
    after l V (Proc.devRef .tc r) = V' (Proc.devRef .tc r) := (hl.keep V (hw r h)).trans hV

local macro "line" : tactic =>
  `(tactic| (
    simp only [Line, List.Forall, nullary_bufs_sub, unary_bufs_sub, binary_bufs_sub, ternary_bufs_sub, true_and,
      nullary_writes, unary_writes, binary_writes, ternary_writes, Finset.singleton_subset_iff, List.mem_toFinset]
    and_intros <;> first | rfl | exact List.mem_map_of_mem (by decide)))

abbrev opsAB : List (HloOp τ sig (Elt F)) :=
  [ binary main_arg0 main_arg4 main_v0 (fun l r => Host.dotGeneral dot_S100000x64_S64x64_S100000x64_1_0_0_1_n_n none l r),
    unary main_arg5 main_v1 (broadcastInDim S1x64 ![1] bcast_S64_S1x64_1),
    unary main_v1 main_v2 (broadcastInDim S100000x64 ![0, 1] bcast_S1x64_S100000x64_0_1),
    binary main_v0 main_v2 main_v3 addf,
    binary main_arg0 main_arg6 main_v4 (fun l r => Host.dotGeneral dot_S100000x64_S64x64_S100000x64_1_0_0_1_n_n none l r),
    unary main_arg7 main_v5 (broadcastInDim S1x64 ![1] bcast_S64_S1x64_1),
    unary main_v5 main_v6 (broadcastInDim S100000x64 ![0, 1] bcast_S1x64_S100000x64_0_1),
    binary main_v4 main_v6 main_v7 addf,
    nullary main_c (constantI S_ 32 0#32),
    unary main_c main_v8 (broadcastInDim S1600000 ![] bcast_S_S1600000),
    binary main_arg2 main_v8 main_v9 (cmpi .slt),
    nullary main_c_0 (constantI S_ 32 100000#32),
    unary main_c_0 main_v10 (broadcastInDim S1600000 ![] bcast_S_S1600000),
    binary main_arg2 main_v10 main_v11 addi,
    ternary main_v9 main_v11 main_arg2 main_v12 select,
    unary main_v12 main_v13 (broadcastInDim S1600000x1 ![0] bcast_S1600000_S1600000x1_0),
    binary main_v3 main_v13 main_v14 (fun x i => Host.gather gather_S100000x64_S1600000x1_S1600000x64_1_0_n_n_0_1_164 x i),
    nullary main_c_1 (constantI S_ 32 0#32),
    unary main_c_1 main_v15 (broadcastInDim S1600000 ![] bcast_S_S1600000),
    binary main_arg3 main_v15 main_v16 (cmpi .slt),
    nullary main_c_2 (constantI S_ 32 100000#32),
    unary main_c_2 main_v17 (broadcastInDim S1600000 ![] bcast_S_S1600000),
    binary main_arg3 main_v17 main_v18 addi,
    ternary main_v16 main_v18 main_arg3 main_v19 select,
    unary main_v19 main_v20 (broadcastInDim S1600000x1 ![0] bcast_S1600000_S1600000x1_0),
    binary main_v7 main_v20 main_v21 (fun x i => Host.gather gather_S100000x64_S1600000x1_S1600000x64_1_0_n_n_0_1_164 x i),
    binary main_v14 main_v21 main_v22 addf ]

abbrev wAB : List (Ref sig .tc) :=
  [main_v0, main_v1, main_v2, main_v3, main_v4, main_v5, main_v6, main_v7,
   main_c, main_v8, main_v9, main_c_0, main_v10, main_v11, main_v12, main_v13,
   main_v14, main_c_1, main_v15, main_v16, main_c_2, main_v17, main_v18, main_v19,
   main_v20, main_v21, main_v22]

theorem lineAB : Line (F := F) opsAB wAB := by line

abbrev opsC : List (HloOp τ sig (Elt F)) :=
  [ binary main_arg1 main_arg8 main_v23 (fun l r => Host.dotGeneral dot_S1600000x64_S64x64_S1600000x64_1_0_0_1_n_n none l r),
    unary main_arg9 main_v24 (broadcastInDim S1x64 ![1] bcast_S64_S1x64_1),
    unary main_v24 main_v25 (broadcastInDim S1600000x64 ![0, 1] bcast_S1x64_S1600000x64_0_1),
    binary main_v23 main_v25 main_v26 addf,
    binary main_v22 main_v26 main_v27 addf,
    unary main_v27 main_v28 Host.negf,
    unary main_v28 main_v29 Host.exp,
    nullary main_cst (constant S_ .f32 0x3F800000#32),
    unary main_cst main_v30 (broadcastInDim S1600000x64 ![] bcast_S_S1600000x64),
    binary main_v30 main_v29 main_v31 addf,
    nullary main_cst_3 (constant S_ .f32 0x3F800000#32),
    unary main_cst_3 main_v32 (broadcastInDim S1600000x64 ![] bcast_S_S1600000x64),
    binary main_v32 main_v31 main_v33 Host.divf ]

abbrev wC : List (Ref sig .tc) :=
  [main_v23, main_v24, main_v25, main_v26, main_v27, main_v28, main_v29, main_cst,
   main_v30, main_v31, main_cst_3, main_v32, main_v33]

theorem lineC : Line (F := F) opsC wC := by line

abbrev opsD : List (HloOp τ sig (Elt F)) :=
  [ binary main_arg0 main_arg12 main_v34 (fun l r => Host.dotGeneral dot_S100000x64_S64x64_S100000x64_1_0_0_1_n_n none l r),
    unary main_arg13 main_v35 (broadcastInDim S1x64 ![1] bcast_S64_S1x64_1),
    unary main_v35 main_v36 (broadcastInDim S100000x64 ![0, 1] bcast_S1x64_S100000x64_0_1),
    binary main_v34 main_v36 main_v37 addf,
    nullary main_c_4 (constantI S_ 32 0#32),
    unary main_c_4 main_v38 (broadcastInDim S1600000 ![] bcast_S_S1600000),
    binary main_arg2 main_v38 main_v39 (cmpi .slt),
    nullary main_c_5 (constantI S_ 32 100000#32),
    unary main_c_5 main_v40 (broadcastInDim S1600000 ![] bcast_S_S1600000),
    binary main_arg2 main_v40 main_v41 addi,
    ternary main_v39 main_v41 main_arg2 main_v42 select,
    unary main_v42 main_v43 (broadcastInDim S1600000x1 ![0] bcast_S1600000_S1600000x1_0),
    binary main_v37 main_v43 main_v44 (fun x i => Host.gather gather_S100000x64_S1600000x1_S1600000x64_1_0_n_n_0_1_164 x i),
    binary main_v44 main_v33 main_v45 mulf,
    nullary main_cst_6 (constant S_ .f32 0x00000000#32),
    unary main_cst_6 main_v46 (broadcastInDim S100000x64 ![] bcast_S_S100000x64),
    unary main_arg3 main_v47 (broadcastInDim S1600000x1 ![0] bcast_S1600000_S1600000x1_0),
    ternary main_v46 main_v47 main_v45 main_v48 (fun x i u => Host.scatterAdd scatter_S100000x64_S1600000x1_S1600000x64_1_0_0_1 x i u),
    nullary main_cst_7 (constant S_ .f32 0x00000000#32),
    unary main_cst_7 main_v49 (broadcastInDim S100000x64 ![] bcast_S_S100000x64) ]

abbrev wD : List (Ref sig .tc) :=
  [main_v34, main_v35, main_v36, main_v37, main_c_4, main_v38, main_v39, main_c_5,
   main_v40, main_v41, main_v42, main_v43, main_v44, main_v45, main_cst_6, main_v46,
   main_v47, main_v48, main_cst_7, main_v49]

theorem lineD : Line (F := F) opsD wD := by line

abbrev opsE : List (HloOp τ sig (Elt F)) :=
  [ unary main_arg3 main_v50 (broadcastInDim S1600000x1 ![0] bcast_S1600000_S1600000x1_0),
    ternary main_v49 main_v50 main_v33 main_v51 (fun x i u => Host.scatterAdd scatter_S100000x64_S1600000x1_S1600000x64_1_0_0_1 x i u),
    nullary main_cst_8 (constant S_ .f32 0x358637BD#32),
    unary main_cst_8 main_v52 (broadcastInDim S100000x64 ![] bcast_S_S100000x64),
    binary main_v51 main_v52 main_v53 addf,
    binary main_v48 main_v53 main_v54 Host.divf,
    binary main_arg0 main_arg10 main_v55 (fun l r => Host.dotGeneral dot_S100000x64_S64x64_S100000x64_1_0_0_1_n_n none l r),
    unary main_arg11 main_v56 (broadcastInDim S1x64 ![1] bcast_S64_S1x64_1),
    unary main_v56 main_v57 (broadcastInDim S100000x64 ![0, 1] bcast_S1x64_S100000x64_0_1),
    binary main_v55 main_v57 main_v58 addf,
    binary main_v58 main_v54 main_v59 addf ]

abbrev wE : List (Ref sig .tc) :=
  [main_v50, main_v51, main_cst_8, main_v52, main_v53, main_v54, main_v55, main_v56,
   main_v57, main_v58, main_v59]

theorem lineE : Line (F := F) opsE wE := by line

abbrev opsF : List (HloOp τ sig (Elt F)) :=
  [ nullary main_cst_9 (constant S_ .f32 0x00000000#32),
    binary main_v59 main_cst_9 main_v60 (fun x v => Host.reduceAdd x v reducesTo_S100000x64_S64_d0 h_S_),
    nullary main_cst_10 (constant S_ .f32 0x47C35000#32),
    unary main_cst_10 main_v61 (broadcastInDim S64 ![] bcast_S_S64),
    binary main_v60 main_v61 main_v62 Host.divf,
    nullary main_c_11 (constantI S_ 32 0#32),
    nullary main_call0_cst (constant S_ .f32 0x00000000#32),
    binary main_v59 main_call0_cst main_call0_v0 (fun x v => Host.reduceAdd x v reducesTo_S100000x64_S64_d0 h_S_),
    unary main_call0_v0 main_call0_v1 (broadcastInDim S1x64 ![1] bcast_S64_S1x64_1),
    nullary main_call0_cst_0 (constant S_ .f32 0x47C35000#32),
    unary main_call0_cst_0 main_call0_v2 (broadcastInDim S1x64 ![] bcast_S_S1x64),
    binary main_call0_v1 main_call0_v2 main_call0_v3 Host.divf,
    unary main_call0_v3 main_call0_v4 (broadcastInDim S100000x64 ![0, 1] bcast_S1x64_S100000x64_0_1),
    binary main_v59 main_call0_v4 main_call0_v5 subf,
    binary main_call0_v5 main_call0_v5 main_call0_v6 mulf,
    unary main_c_11 main_call0_v7 (sitofp (F := F) .f32),
    nullary main_call0_cst_1 (constant S_ .f32 0x47C35000#32),
    binary main_call0_cst_1 main_call0_v7 main_call0_v8 subf,
    nullary main_call0_cst_2 (constant S_ .f32 0x00000000#32),
    binary main_call0_v6 main_call0_cst_2 main_call0_v9 (fun x v => Host.reduceAdd x v reducesTo_S100000x64_S64_d0 h_S_),
    unary main_call0_v8 main_call0_v10 (broadcastInDim S64 ![] bcast_S_S64),
    binary main_call0_v9 main_call0_v10 main_call0_v11 Host.divf,
    nullary main_call0_cst_3 (constant S_ .f32 0x00000000#32),
    binary main_call0_v8 main_call0_cst_3 main_call0_v12 (cmpf (F := F) .ogt),
    nullary main_call0_cst_4 (constant S_ .f32 0x7FC00000#32),
    unary main_call0_cst_4 main_call0_call0_v0 id,
    unary main_call0_call0_v0 main_call0_call0_v1 (broadcastInDim S64 ![] bcast_S_S64),
    ternary main_call0_v12 main_call0_v11 main_call0_call0_v1 main_v63 (fun p a b => select (broadcastInDim S64 ![] bcast_S_S64 p) a b) ]

abbrev wF : List (Ref sig .tc) :=
  [main_cst_9, main_v60, main_cst_10, main_v61, main_v62, main_c_11, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v63]

theorem lineF : Line (F := F) opsF wF := by line

abbrev opsGH : List (HloOp τ sig (Elt F)) :=
  [ unary main_v62 main_v64 (broadcastInDim S1x64 ![1] bcast_S64_S1x64_1),
    unary main_v64 main_v65 (broadcastInDim S100000x64 ![0, 1] bcast_S1x64_S100000x64_0_1),
    binary main_v59 main_v65 main_v66 subf,
    nullary main_cst_12 (constant S_ .f32 0x3727C5AC#32),
    unary main_cst_12 main_v67 (broadcastInDim S64 ![] bcast_S_S64),
    binary main_v63 main_v67 main_v68 addf,
    unary main_v68 main_v69 Host.rsqrt,
    unary main_v69 main_v70 (broadcastInDim S1x64 ![1] bcast_S64_S1x64_1),
    unary main_v70 main_v71 (broadcastInDim S100000x64 ![0, 1] bcast_S1x64_S100000x64_0_1),
    binary main_v66 main_v71 main_v72 mulf,
    unary main_arg14 main_v73 (broadcastInDim S1x64 ![1] bcast_S64_S1x64_1),
    unary main_v73 main_v74 (broadcastInDim S100000x64 ![0, 1] bcast_S1x64_S100000x64_0_1),
    binary main_v72 main_v74 main_v75 mulf,
    unary main_arg15 main_v76 (broadcastInDim S1x64 ![1] bcast_S64_S1x64_1),
    unary main_v76 main_v77 (broadcastInDim S100000x64 ![0, 1] bcast_S1x64_S100000x64_0_1),
    binary main_v75 main_v77 main_v78 addf,
    unary main_v78 main_call1_v0 Host.negf,
    unary main_call1_v0 main_call1_v1 Host.exp,
    nullary main_call1_cst (constant S_ .f32 0x3F800000#32),
    unary main_call1_cst main_call1_v2 (broadcastInDim S100000x64 ![] bcast_S_S100000x64),
    binary main_call1_v2 main_call1_v1 main_call1_v3 addf,
    nullary main_call1_cst_0 (constant S_ .f32 0x3F800000#32),
    unary main_call1_cst_0 main_call1_v4 (broadcastInDim S100000x64 ![] bcast_S_S100000x64),
    binary main_call1_v4 main_call1_v3 main_call1_v5 Host.divf,
    binary main_v78 main_call1_v5 main_v79 mulf ]

abbrev wGH : List (Ref sig .tc) :=
  [main_v64, main_v65, main_v66, main_cst_12, main_v67, main_v68, main_v69, main_v70,
   main_v71, main_v72, main_v73, main_v74, main_v75, main_v76, main_v77, main_v78,
   main_call1_v0, main_call1_v1, main_call1_cst, main_call1_v2, main_call1_v3, main_call1_cst_0, main_call1_v4, main_call1_v5,
   main_v79]

theorem lineGH : Line (F := F) opsGH wGH := by line

abbrev opsI : List (HloOp τ sig (Elt F)) :=
  [ nullary main_cst_13 (constant S_ .f32 0x00000000#32),
    binary main_v27 main_cst_13 main_v80 (fun x v => Host.reduceAdd x v reducesTo_S1600000x64_S64_d0 h_S_),
    nullary main_cst_14 (constant S_ .f32 0x49C35000#32),
    unary main_cst_14 main_v81 (broadcastInDim S64 ![] bcast_S_S64),
    binary main_v80 main_v81 main_v82 Host.divf,
    nullary main_c_15 (constantI S_ 32 0#32),
    nullary main_call2_cst (constant S_ .f32 0x00000000#32),
    binary main_v27 main_call2_cst main_call2_v0 (fun x v => Host.reduceAdd x v reducesTo_S1600000x64_S64_d0 h_S_),
    unary main_call2_v0 main_call2_v1 (broadcastInDim S1x64 ![1] bcast_S64_S1x64_1),
    nullary main_call2_cst_0 (constant S_ .f32 0x49C35000#32),
    unary main_call2_cst_0 main_call2_v2 (broadcastInDim S1x64 ![] bcast_S_S1x64),
    binary main_call2_v1 main_call2_v2 main_call2_v3 Host.divf,
    unary main_call2_v3 main_call2_v4 (broadcastInDim S1600000x64 ![0, 1] bcast_S1x64_S1600000x64_0_1),
    binary main_v27 main_call2_v4 main_call2_v5 subf,
    binary main_call2_v5 main_call2_v5 main_call2_v6 mulf,
    unary main_c_15 main_call2_v7 (sitofp (F := F) .f32),
    nullary main_call2_cst_1 (constant S_ .f32 0x49C35000#32),
    binary main_call2_cst_1 main_call2_v7 main_call2_v8 subf,
    nullary main_call2_cst_2 (constant S_ .f32 0x00000000#32),
    binary main_call2_v6 main_call2_cst_2 main_call2_v9 (fun x v => Host.reduceAdd x v reducesTo_S1600000x64_S64_d0 h_S_),
    unary main_call2_v8 main_call2_v10 (broadcastInDim S64 ![] bcast_S_S64),
    binary main_call2_v9 main_call2_v10 main_call2_v11 Host.divf,
    nullary main_call2_cst_3 (constant S_ .f32 0x00000000#32),
    binary main_call2_v8 main_call2_cst_3 main_call2_v12 (cmpf (F := F) .ogt),
    nullary main_call2_cst_4 (constant S_ .f32 0x7FC00000#32),
    unary main_call2_cst_4 main_call2_call0_v0 id,
    unary main_call2_call0_v0 main_call2_call0_v1 (broadcastInDim S64 ![] bcast_S_S64),
    ternary main_call2_v12 main_call2_v11 main_call2_call0_v1 main_v83 (fun p a b => select (broadcastInDim S64 ![] bcast_S_S64 p) a b) ]

abbrev wI : List (Ref sig .tc) :=
  [main_cst_13, main_v80, main_cst_14, main_v81, main_v82, main_c_15, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v83]

theorem lineI : Line (F := F) opsI wI := by line

abbrev opsJK : List (HloOp τ sig (Elt F)) :=
  [ unary main_v82 main_v84 (broadcastInDim S1x64 ![1] bcast_S64_S1x64_1),
    unary main_v84 main_v85 (broadcastInDim S1600000x64 ![0, 1] bcast_S1x64_S1600000x64_0_1),
    binary main_v27 main_v85 main_v86 subf,
    nullary main_cst_16 (constant S_ .f32 0x3727C5AC#32),
    unary main_cst_16 main_v87 (broadcastInDim S64 ![] bcast_S_S64),
    binary main_v83 main_v87 main_v88 addf,
    unary main_v88 main_v89 Host.rsqrt,
    unary main_v89 main_v90 (broadcastInDim S1x64 ![1] bcast_S64_S1x64_1),
    unary main_v90 main_v91 (broadcastInDim S1600000x64 ![0, 1] bcast_S1x64_S1600000x64_0_1),
    binary main_v86 main_v91 main_v92 mulf,
    unary main_arg16 main_v93 (broadcastInDim S1x64 ![1] bcast_S64_S1x64_1),
    unary main_v93 main_v94 (broadcastInDim S1600000x64 ![0, 1] bcast_S1x64_S1600000x64_0_1),
    binary main_v92 main_v94 main_v95 mulf,
    unary main_arg17 main_v96 (broadcastInDim S1x64 ![1] bcast_S64_S1x64_1),
    unary main_v96 main_v97 (broadcastInDim S1600000x64 ![0, 1] bcast_S1x64_S1600000x64_0_1),
    binary main_v95 main_v97 main_v98 addf,
    unary main_v98 main_call3_v0 Host.negf,
    unary main_call3_v0 main_call3_v1 Host.exp,
    nullary main_call3_cst (constant S_ .f32 0x3F800000#32),
    unary main_call3_cst main_call3_v2 (broadcastInDim S1600000x64 ![] bcast_S_S1600000x64),
    binary main_call3_v2 main_call3_v1 main_call3_v3 addf,
    nullary main_call3_cst_0 (constant S_ .f32 0x3F800000#32),
    unary main_call3_cst_0 main_call3_v4 (broadcastInDim S1600000x64 ![] bcast_S_S1600000x64),
    binary main_call3_v4 main_call3_v3 main_call3_v5 Host.divf,
    binary main_v98 main_call3_v5 main_v99 mulf,
    binary main_arg0 main_v79 main_v100 addf ]

abbrev wJK : List (Ref sig .tc) :=
  [main_v84, main_v85, main_v86, main_cst_16, main_v87, main_v88, main_v89, main_v90,
   main_v91, main_v92, main_v93, main_v94, main_v95, main_v96, main_v97, main_v98,
   main_call3_v0, main_call3_v1, main_call3_cst, main_call3_v2, main_call3_v3, main_call3_cst_0, main_call3_v4, main_call3_v5,
   main_v99, main_v100]

theorem lineJK : Line (F := F) opsJK wJK := by line

abbrev opsL : List (HloOp τ sig (Elt F)) :=
  [ binary main_arg1 main_v99 main_v101 addf ]

abbrev wL : List (Ref sig .tc) :=
  [main_v101]

theorem lineL : Line (F := F) opsL wL := by line

def ops0 : List (HloOp τ sig (Elt F)) := opsAB ++ (opsC ++ opsD)

def ops1 : List (HloOp τ sig (Elt F)) := opsE ++ (opsF ++ (opsGH ++ (opsI ++ opsJK)))

abbrev ops : List (HloOp τ sig (Elt F)) := ops0 ++ (ops1 ++ opsL)

set_option maxRecDepth 8192 in
set_option maxHeartbeats 4000000 in
theorem part0_eq (c : Dev nD) : main_part0 (F := F) c = seq ops0 := rfl

set_option maxRecDepth 16384 in
set_option maxHeartbeats 8000000 in

theorem part1_eq (c : Dev nD) : main_part1 (F := F) c = seq ops1 := by
  simp only [main_part1, fn_var.body, fn_var_0.body, fn_where.body, fn_silu.body, fn_silu_1.body, bind_assoc, pure_bind]
  rfl

theorem part2_eq (c : Dev nD) : main_part2 (F := F) c = seq opsL := rfl

theorem main_eq (c : Dev nD) : main (F := F) c = seq ops := by
  simp only [ops, seq_append, ← part0_eq c, ← part1_eq c, ← part2_eq c]
  rfl

theorem ops_ok : ∀ op ∈ (ops : List (HloOp τ sig (Elt F))), op.bufs ⊆ tcRefs τ sig ∧ op.fresh = ∅ := by
  simp only [ops, ops0, ops1, List.forall_mem_append]
  exact ⟨⟨lineAB.ok, lineC.ok, lineD.ok⟩, ⟨lineE.ok, lineF.ok, lineGH.ok, lineI.ok, lineJK.ok⟩, lineL.ok⟩

variable (V0 : Valuation τ sig (Elt F))

def val1 := after opsAB V0
def val2 := after opsC (val1 V0)
def val3 := after opsD (val2 V0)
def val4 := after opsE (val3 V0)
def val5 := after opsF (val4 V0)
def val6 := after opsGH (val5 V0)
def val7 := after opsI (val6 V0)
def val8 := after opsJK (val7 V0)
def val9 := after opsL (val8 V0)

theorem after_ops (b : DevRef τ sig) : after (ops : List (HloOp τ sig (Elt F))) V0 b = val9 V0 b := by
  simp only [ops, ops0, ops1, after_append]
  rfl

/-- `V` holds every argument as `V0` does. -/
abbrev ArgsKept (V : Valuation τ sig (Elt F)) : Prop :=
  ∀ {r : Ref sig .tc}, r ∈ argRefs → V (no_index (Proc.devRef .tc r)) = V0 (Proc.devRef .tc r)

theorem val1_arg : ArgsKept V0 (val1 V0) := fun h => lineAB.arg (by decide) h rfl
theorem val2_arg : ArgsKept V0 (val2 V0) := fun h => lineC.arg (by decide) h (val1_arg V0 h)
theorem val3_arg : ArgsKept V0 (val3 V0) := fun h => lineD.arg (by decide) h (val2_arg V0 h)
theorem val4_arg : ArgsKept V0 (val4 V0) := fun h => lineE.arg (by decide) h (val3_arg V0 h)
theorem val5_arg : ArgsKept V0 (val5 V0) := fun h => lineF.arg (by decide) h (val4_arg V0 h)
theorem val6_arg : ArgsKept V0 (val6 V0) := fun h => lineGH.arg (by decide) h (val5_arg V0 h)
theorem val7_arg : ArgsKept V0 (val7 V0) := fun h => lineI.arg (by decide) h (val6_arg V0 h)
theorem val8_arg : ArgsKept V0 (val8 V0) := fun h => lineJK.arg (by decide) h (val7_arg V0 h)
theorem val9_arg : ArgsKept V0 (val9 V0) := fun h => lineL.arg (by decide) h (val8_arg V0 h)

section
set_option maxRecDepth 8192
set_option maxHeartbeats 2000000

theorem val1_v22 : val1 V0 (no_index (Proc.devRef .tc main_v22)) = gathered (inputsOf V0) := by
  unfold val1
  simp only [opsAB]
  after_results_simp
  rfl

theorem val2_vs : val2 V0 (no_index (Proc.devRef .tc main_v27)) = gateLogits (inputsOf V0)
    ∧ val2 V0 (no_index (Proc.devRef .tc main_v33)) = sigma (inputsOf V0) := by
  unfold val2
  simp only [opsC]
  after_results_simp
  simp (disch := decide) only [val1_v22, val1_arg]
  exact ⟨rfl, rfl⟩

theorem val3_v33 : val3 V0 (no_index (Proc.devRef .tc main_v33)) = sigma (inputsOf V0) :=
  (lineD.keep _ (by decide)).trans (val2_vs V0).2

theorem val3_vs : val3 V0 (no_index (Proc.devRef .tc main_v48)) = sumSigmaH (inputsOf V0)
    ∧ val3 V0 (no_index (Proc.devRef .tc main_v49)) = fillN 0x00000000#32 := by
  unfold val3
  simp only [opsD]
  after_results_simp
  simp (disch := decide) only [val2_vs, val2_arg]
  exact ⟨rfl, rfl⟩

theorem val4_v59 : val4 V0 (no_index (Proc.devRef .tc main_v59)) = xPre (inputsOf V0) := by
  unfold val4
  simp only [opsE]
  after_results_simp
  simp (disch := decide) only [val3_v33, val3_vs, val3_arg]
  rfl

theorem val5_v59 : val5 V0 (no_index (Proc.devRef .tc main_v59)) = xPre (inputsOf V0) :=
  (lineF.keep _ (by decide)).trans (val4_v59 V0)

theorem val5_vs : val5 V0 (no_index (Proc.devRef .tc main_v62)) = meanN (xPre (inputsOf V0))
    ∧ val5 V0 (no_index (Proc.devRef .tc main_v63)) = varN (xPre (inputsOf V0)) := by
  unfold val5
  simp only [opsF]
  after_results_simp
  simp (disch := decide) only [val4_v59]
  exact ⟨rfl, rfl⟩

theorem val6_v27 : val6 V0 (no_index (Proc.devRef .tc main_v27)) = gateLogits (inputsOf V0) :=
  (lineGH.keep _ (by decide)).trans <| (lineF.keep _ (by decide)).trans <| (lineE.keep _ (by decide)).trans <|
    (lineD.keep _ (by decide)).trans (val2_vs V0).1

theorem val6_v79 : val6 V0 (no_index (Proc.devRef .tc main_v79)) = siluN (xNorm (inputsOf V0)) := by
  unfold val6
  simp only [opsGH]
  after_results_simp
  simp (disch := decide) only [val5_v59, val5_vs, val5_arg]
  rfl

theorem val7_v27 : val7 V0 (no_index (Proc.devRef .tc main_v27)) = gateLogits (inputsOf V0) :=
  (lineI.keep _ (by decide)).trans (val6_v27 V0)
theorem val7_v79 : val7 V0 (no_index (Proc.devRef .tc main_v79)) = siluN (xNorm (inputsOf V0)) :=
  (lineI.keep _ (by decide)).trans (val6_v79 V0)

theorem val7_vs : val7 V0 (no_index (Proc.devRef .tc main_v82)) = meanE (gateLogits (inputsOf V0))
    ∧ val7 V0 (no_index (Proc.devRef .tc main_v83)) = varE (gateLogits (inputsOf V0)) := by
  unfold val7
  simp only [opsI]
  after_results_simp
  simp (disch := decide) only [val6_v27]
  exact ⟨rfl, rfl⟩

theorem val8_vs : val8 V0 (no_index (Proc.devRef .tc main_v99)) = siluE (yNorm (inputsOf V0))
    ∧ val8 V0 (no_index (Proc.devRef .tc main_v100)) = out0 (inputsOf V0) := by
  unfold val8
  simp only [opsJK]
  after_results_simp
  simp (disch := decide) only [val7_v27, val7_vs, val7_v79, val7_arg]
  exact ⟨rfl, rfl⟩

theorem val9_v100 : val9 V0 (no_index (Proc.devRef .tc main_v100)) = out0 (inputsOf V0) :=
  (lineL.keep _ (by decide)).trans (val8_vs V0).2

theorem val9_v101 : val9 V0 (no_index (Proc.devRef .tc main_v101)) = out1 (inputsOf V0) := by
  unfold val9
  simp only [opsL]
  after_results_simp
  simp (disch := decide) only [val8_vs, val8_arg]
  rfl

end

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v100) = res0 m c
      ∧ r.2.mem ((c.tc : Thread nD τ).loc main_v101) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => by
      have h' b := (h c b).trans (after_ops _ _)
      refine ⟨(h' _).trans (val9_v100 _), (h' _).trans (val9_v101 _), ?_⟩
      and_intros <;> exact (h' _).trans (val9_arg _ (by decide)))
    (run_seq (by decide) (by decide) defs main (fun _ => ops) main_eq
      (fun _ => List.forall_iff_forall_mem.mpr fun op h => (ops_ok op h).1) m ρ (fun _ op h => (ops_ok op h).2))

end Cert.ReferenceIdeal.Hand

end
-- ==== Proof.KI.HostRead.lean ====
import proofs.«419296_j32031866093810_3_alg».proof.Proof.Gen.KernelIdeal.Regions
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

variable {F : FTy → Type} [FloatOps F]

def catW (a b c d : Vec F S64x64 .f32) : Vec F S64x256 .f32 :=
  concatenate S64x256 1 [⟨S64x64, a⟩, ⟨S64x64, b⟩, ⟨S64x64, c⟩, ⟨S64x64, d⟩] concatenates_S64x64_S64x64_S64x64_S64x64_S64x256_d1

def catB (a b c d : Vec F S64 .f32) : Vec F S1x256 .f32 :=
  shapeCast S1x256 (concatenate S256 0 [⟨S64, a⟩, ⟨S64, b⟩, ⟨S64, c⟩, ⟨S64, d⟩] concatenates_S64_S64_S64_S64_S256_d0)
    shapeCasts_S256_S1x256

def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

def colIdx (i : IVec S1600000 32) : IVec S1600000x1 32 :=
  broadcastInDim S1600000x1 ![0] bcast_S1600000_S1600000x1_0 i

def gatherWide (x : Vec F S100000x128 .f32) (i : IVec S1600000 32) : Vec F S1600000x128 .f32 :=
  Host.gather gather_S100000x128_S1600000x1_S1600000x128_1_0_n_n_0_1_1128 x (colIdx (wrapIdx i))

def gatherLo (x : Vec F S100000x128 .f32) (i : IVec S1600000 32) : Vec F S1600000x64 .f32 :=
  extractStridedSlice S1600000x64 ![0, 0] (gatherWide x i) slices_S1600000x128_S1600000x64_0_0

def gatherHi (x : Vec F S100000x128 .f32) (i : IVec S1600000 32) : Vec F S1600000x64 .f32 :=
  extractStridedSlice S1600000x64 ![0, 64] (gatherWide x i) slices_S1600000x128_S1600000x64_0_64

def gatherNarrow (x : Vec F S100000x64 .f32) (i : IVec S1600000 32) : Vec F S1600000x64 .f32 :=
  Host.gather gather_S100000x64_S1600000x1_S1600000x64_1_0_n_n_0_1_164 x (colIdx (wrapIdx i))

def asRow (b : Vec F S64 .f32) : Vec F S1x64 .f32 := shapeCast S1x64 b shapeCasts_S64_S1x64

def segSum (i : IVec S1600000 32) (u : Vec F S1600000x64 .f32) : Vec F S100000x64 .f32 :=
  Host.scatterAdd scatter_S100000x64_S1600000x1_S1600000x64_1_0_0_1
    (broadcastInDim S100000x64 ![] bcast_S_S100000x64 (constant (F := F) S_ .f32 0x00000000#32)) (colIdx i) u

def nodeUpd (x : Vec F S100000x64 .f32) (i : IVec S1600000 32) (msg gate : Vec F S1600000x64 .f32) : Vec F S100000x64 .f32 :=
  addf x (Host.divf (segSum i msg)
    (addf (segSum i gate) (broadcastInDim S100000x64 ![] bcast_S_S100000x64 (constant (F := F) S_ .f32 0x358637BD#32))))

def fold2 (x : Vec F S100000x64 .f32) : Vec F S50000x128 .f32 := shapeCast S50000x128 x shapeCasts_S100000x64_S50000x128

def halfSum (s : Vec F S1x128 .f32) : Vec F S64 .f32 :=
  addf (extractStridedSlice S64 ![0] (shapeCast S128 s shapeCasts_S1x128_S128) slices_S128_S64_0)
    (extractStridedSlice S64 ![64] (shapeCast S128 s shapeCasts_S1x128_S128) slices_S128_S64_64)

def meanOf (n : BitVec 32) (s : Vec F S1x128 .f32) : Vec F S64 .f32 :=
  Host.divf (halfSum s) (broadcastInDim S64 ![] bcast_S_S64 (constant (F := F) S_ .f32 n))

def varOf (n : BitVec 32) (s q : Vec F S1x128 .f32) : Vec F S64 .f32 :=
  subf (Host.divf (halfSum q) (broadcastInDim S64 ![] bcast_S_S64 (constant (F := F) S_ .f32 n)))
    (mulf (meanOf n s) (meanOf n s))

def tile2 (v : Vec F S64 .f32) : Vec F S1x128 .f32 :=
  shapeCast S1x128
    (shapeCast S128 (broadcastInDim S2x64 ![0, 1] bcast_S1x64_S2x64_0_1 (shapeCast S1x64 v shapeCasts_S64_S1x64))
      shapeCasts_S2x64_S128)
    shapeCasts_S128_S1x128

def unfold2 (x : Vec F S50000x128 .f32) : Vec F S100000x64 .f32 := shapeCast S100000x64 x shapeCasts_S50000x128_S100000x64

def foldE (x : Vec F S1600000x64 .f32) : Vec F S800000x128 .f32 := shapeCast S800000x128 x shapeCasts_S1600000x64_S800000x128

def unfoldE (x : Vec F S800000x128 .f32) : Vec F S1600000x64 .f32 := shapeCast S1600000x64 x shapeCasts_S800000x128_S1600000x64

variable (W : Valuation τ sig (Elt F))

theorem host0_v0 :
    StableHlo.after hostOps0 W main_v0
      = catW (W main_arg4) (W main_arg12) (W main_arg6) (W main_arg10) := by
  after_results; rfl

theorem host0_v2 :
    StableHlo.after hostOps0 W main_v2
      = catB (W main_arg5) (W main_arg13) (W main_arg7) (W main_arg11) := by
  after_results; rfl

theorem host1_v11 : StableHlo.after hostOps1 W main_v11 = gatherLo (W main_v3_0) (W main_arg2) := by
  after_results_simp; rfl

theorem host1_v12 : StableHlo.after hostOps1 W main_v12 = gatherHi (W main_v3_0) (W main_arg2) := by
  after_results_simp; rfl

theorem host1_v19 : StableHlo.after hostOps1 W main_v19 = gatherNarrow (W main_v3_1) (W main_arg3) := by
  after_results_simp; rfl

theorem host1_v20 : StableHlo.after hostOps1 W main_v20 = asRow (W main_arg9) := by
  after_results_simp; rfl

theorem host2_v32 :
    StableHlo.after hostOps2 W main_v32
      = fold2 (nodeUpd (W main_v3_2) (W main_arg3) (W main_v21_2) (W main_v21_1)) := by
  after_results_simp; rfl

theorem host2_v33 : StableHlo.after hostOps2 W main_v33 = fold2 (W main_arg0) := by
  after_results_simp; rfl

theorem host3_v52 : StableHlo.after hostOps3 W main_v52 = tile2 (meanOf 0x47C35000#32 (W main_v34_0)) := by
  after_results_simp; rfl

theorem host3_v56 :
    StableHlo.after hostOps3 W main_v56
      = tile2 (varOf 0x47C35000#32 (W main_v34_0) (W main_v34_1)) := by
  after_results_simp; rfl

theorem host3_v60 : StableHlo.after hostOps3 W main_v60 = tile2 (W main_arg14) := by
  after_results_simp; rfl

theorem host3_v64 : StableHlo.after hostOps3 W main_v64 = tile2 (W main_arg15) := by
  after_results_simp; rfl

theorem host4_v66 : StableHlo.after hostOps4 W main_v66 = unfold2 (W main_v65) := by
  after_results; rfl

theorem host4_v67 : StableHlo.after hostOps4 W main_v67 = foldE (W main_v21_0) := by
  after_results; rfl

theorem host4_v68 : StableHlo.after hostOps4 W main_v68 = foldE (W main_arg1) := by
  after_results; rfl

theorem host5_v87 : StableHlo.after hostOps5 W main_v87 = tile2 (meanOf 0x49C35000#32 (W main_v69_0)) := by
  after_results_simp; rfl

theorem host5_v91 :
    StableHlo.after hostOps5 W main_v91
      = tile2 (varOf 0x49C35000#32 (W main_v69_0) (W main_v69_1)) := by
  after_results_simp; rfl

theorem host5_v95 : StableHlo.after hostOps5 W main_v95 = tile2 (W main_arg16) := by
  after_results_simp; rfl

theorem host5_v99 : StableHlo.after hostOps5 W main_v99 = tile2 (W main_arg17) := by
  after_results_simp; rfl

theorem host6_v101 : StableHlo.after hostOps6 W main_v101 = unfoldE (W main_v100) := by
  after_results; rfl

end Cert.KernelIdeal.Hand

end
-- ==== Proof.KI.Chain.lean ====
import proofs.«419296_j32031866093810_3_alg».proof.Proof.KI.HostRead
import proofs.«419296_j32031866093810_3_alg».proof.Proof.Gen.KernelIdeal.Regions

set_option maxRecDepth 1276

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (outs : Gen.Outs (F := F)) (c : Dev nD)

section
variable {m outs c} {r : Ref sig .tc} {x : Buf (Elt F) ((c : Thread nD τ).loc r)}

-- What item k reads at a name the two items before it do not write is what item k-2 read there.
theorem up2 (p : V0 m c r = x) (h : r ∉ hostOps0_W ∧ r ∉ [main_v3_0, main_v3_1, main_v3_2] := by decide) :
    V2 m outs c r = x :=
  (V2_of m outs c r h.2).trans <| (V1_of m c r h.1).trans p

theorem up4 (p : V2 m outs c r = x) (h : r ∉ hostOps1_W ∧ r ∉ [main_v21_0, main_v21_1, main_v21_2] := by decide) :
    V4 m outs c r = x :=
  (V4_of m outs c r h.2).trans <| (V3_of m outs c r h.1).trans p

theorem up6 (p : V4 m outs c r = x) (h : r ∉ hostOps2_W ∧ r ∉ [main_v34_0, main_v34_1] := by decide) :
    V6 m outs c r = x :=
  (V6_of m outs c r h.2).trans <| (V5_of m outs c r h.1).trans p

theorem up8 (p : V6 m outs c r = x) (h : r ∉ hostOps3_W ∧ r ∉ [main_v65] := by decide) : V8 m outs c r = x :=
  (V8_of m outs c r h.2).trans <| (V7_of m outs c r h.1).trans p

theorem up10 (p : V8 m outs c r = x) (h : r ∉ hostOps4_W ∧ r ∉ [main_v69_0, main_v69_1] := by decide) :
    V10 m outs c r = x :=
  (V10_of m outs c r h.2).trans <| (V9_of m outs c r h.1).trans p

theorem up7 (p : V5 m outs c r = x) (h : r ∉ [main_v34_0, main_v34_1] ∧ r ∉ hostOps3_W := by decide) :
    V7 m outs c r = x :=
  (V7_of m outs c r h.2).trans <| (V6_of m outs c r h.1).trans p

theorem up11 (p : V9 m outs c r = x) (h : r ∉ [main_v69_0, main_v69_1] ∧ r ∉ hostOps5_W := by decide) :
    V11 m outs c r = x :=
  (V11_of m outs c r h.2).trans <| (V10_of m outs c r h.1).trans p

-- Reading an updated valuation at another name.
theorem rd_ne {W : Valuation τ sig (Elt F)} {s : Ref sig .tc} {v y} (p : W r = y) (h : r ≠ s := by decide) :
    Function.update W s v r = y :=
  (Function.update_of_ne (StableHlo.devRef_ne_of_ne h) _ _).trans p

theorem V2_v3_0 : V2 m outs c main_v3_0 = outs 2 main_v3_0 c := rd_ne (rd_ne (Function.update_self ..))

theorem V6_v34_0 : V6 m outs c main_v34_0 = outs 6 main_v34_0 c := rd_ne (Function.update_self ..)

theorem V10_v69_0 : V10 m outs c main_v69_0 = outs 10 main_v69_0 c := rd_ne (Function.update_self ..)

end

theorem nodeUpd_congr {x x' : Vec F S100000x64 .f32} {i i' : IVec S1600000 32} {u u' g g' : Vec F S1600000x64 .f32}
    (hx : x = x') (hi : i = i') (hu : u = u') (hg : g = g') : nodeUpd x i u g = nodeUpd x' i' u' g' := by
  subst hx hi hu hg; rfl

theorem entry0_arg0 : V1 m c (Proc.devRef .tc main_arg0) = (m ((c : Thread nD τ).loc main_arg0)) :=
  V1_of m c main_arg0 (by decide)

theorem entry0_v0 :
    (V1 m c (Proc.devRef .tc main_v0) : Vec F S64x256 .f32)
      = catW (m ((c : Thread nD τ).loc main_arg4)) (m ((c : Thread nD τ).loc main_arg12))
          (m ((c : Thread nD τ).loc main_arg6)) (m ((c : Thread nD τ).loc main_arg10)) :=
  host0_v0 (V0 m c)

theorem entry0_v2 :
    (V1 m c (Proc.devRef .tc main_v2) : Vec F S1x256 .f32)
      = catB (m ((c : Thread nD τ).loc main_arg5)) (m ((c : Thread nD τ).loc main_arg13))
          (m ((c : Thread nD τ).loc main_arg7)) (m ((c : Thread nD τ).loc main_arg11)) :=
  host0_v2 (V0 m c)

theorem entry1_arg1 : V3 m outs c (Proc.devRef .tc main_arg1) = (m ((c : Thread nD τ).loc main_arg1)) :=
  (V3_of m outs c main_arg1 (by decide)).trans (up2 rfl)

theorem entry1_arg8 : V3 m outs c (Proc.devRef .tc main_arg8) = (m ((c : Thread nD τ).loc main_arg8)) :=
  (V3_of m outs c main_arg8 (by decide)).trans (up2 rfl)

theorem entry1_v11 :
    (V3 m outs c (Proc.devRef .tc main_v11) : Vec F S1600000x64 .f32)
      = gatherLo (outs 2 main_v3_0 c) (m ((c : Thread nD τ).loc main_arg2)) :=
  (host1_v11 (V2 m outs c)).trans (congrArg₂ gatherLo V2_v3_0 (up2 rfl))

theorem entry1_v12 :
    (V3 m outs c (Proc.devRef .tc main_v12) : Vec F S1600000x64 .f32)
      = gatherHi (outs 2 main_v3_0 c) (m ((c : Thread nD τ).loc main_arg2)) :=
  (host1_v12 (V2 m outs c)).trans (congrArg₂ gatherHi V2_v3_0 (up2 rfl))

theorem entry1_v19 :
    (V3 m outs c (Proc.devRef .tc main_v19) : Vec F S1600000x64 .f32)
      = gatherNarrow (outs 2 main_v3_1 c) (m ((c : Thread nD τ).loc main_arg3)) :=
  (host1_v19 (V2 m outs c)).trans (congrArg₂ gatherNarrow (rd_ne (Function.update_self ..)) (up2 rfl))

theorem entry1_v20 :
    (V3 m outs c (Proc.devRef .tc main_v20) : Vec F S1x64 .f32)
      = asRow (m ((c : Thread nD τ).loc main_arg9)) :=
  (host1_v20 (V2 m outs c)).trans (congrArg asRow (up2 rfl))

theorem entry2_v32 :
    (V5 m outs c (Proc.devRef .tc main_v32) : Vec F S50000x128 .f32)
      = fold2 (nodeUpd (outs 2 main_v3_2 c) (m ((c : Thread nD τ).loc main_arg3)) (outs 4 main_v21_2 c)
          (outs 4 main_v21_1 c)) :=
  (host2_v32 (V4 m outs c)).trans (congrArg fold2 (nodeUpd_congr (up4 (Function.update_self ..)) (up4 (up2 rfl))
    (Function.update_self ..) (rd_ne (Function.update_self ..))))

theorem entry3_v32 :
    (V7 m outs c (Proc.devRef .tc main_v32) : Vec F S50000x128 .f32)
      = fold2 (nodeUpd (outs 2 main_v3_2 c) (m ((c : Thread nD τ).loc main_arg3)) (outs 4 main_v21_2 c)
          (outs 4 main_v21_1 c)) :=
  up7 (entry2_v32 m outs c)

theorem entry3_v33 :
    (V7 m outs c (Proc.devRef .tc main_v33) : Vec F S50000x128 .f32)
      = fold2 (m ((c : Thread nD τ).loc main_arg0)) :=
  up7 ((host2_v33 (V4 m outs c)).trans (congrArg fold2 (up4 (up2 rfl))))

theorem entry3_v52 :
    (V7 m outs c (Proc.devRef .tc main_v52) : Vec F S1x128 .f32)
      = tile2 (meanOf 0x47C35000#32 (outs 6 main_v34_0 c)) :=
  (host3_v52 (V6 m outs c)).trans (congrArg (fun s => tile2 (meanOf 0x47C35000#32 s)) V6_v34_0)

theorem entry3_v56 :
    (V7 m outs c (Proc.devRef .tc main_v56) : Vec F S1x128 .f32)
      = tile2 (varOf 0x47C35000#32 (outs 6 main_v34_0 c) (outs 6 main_v34_1 c)) :=
  (host3_v56 (V6 m outs c)).trans
    (congrArg₂ (fun s q => tile2 (varOf 0x47C35000#32 s q)) V6_v34_0 (Function.update_self ..))

theorem entry3_v60 :
    (V7 m outs c (Proc.devRef .tc main_v60) : Vec F S1x128 .f32)
      = tile2 (m ((c : Thread nD τ).loc main_arg14)) :=
  (host3_v60 (V6 m outs c)).trans (congrArg tile2 (up6 (up4 (up2 rfl))))

theorem entry3_v64 :
    (V7 m outs c (Proc.devRef .tc main_v64) : Vec F S1x128 .f32)
      = tile2 (m ((c : Thread nD τ).loc main_arg15)) :=
  (host3_v64 (V6 m outs c)).trans (congrArg tile2 (up6 (up4 (up2 rfl))))

theorem entry4_v67 :
    (V9 m outs c (Proc.devRef .tc main_v67) : Vec F S800000x128 .f32)
      = foldE (outs 4 main_v21_0 c) :=
  (host4_v67 (V8 m outs c)).trans (congrArg foldE (up8 (up6 (rd_ne (rd_ne (Function.update_self ..))))))

theorem entry5_v67 :
    (V11 m outs c (Proc.devRef .tc main_v67) : Vec F S800000x128 .f32)
      = foldE (outs 4 main_v21_0 c) :=
  up11 (entry4_v67 m outs c)

theorem entry5_v68 :
    (V11 m outs c (Proc.devRef .tc main_v68) : Vec F S800000x128 .f32)
      = foldE (m ((c : Thread nD τ).loc main_arg1)) :=
  up11 ((host4_v68 (V8 m outs c)).trans (congrArg foldE (up8 (up6 (up4 (up2 rfl))))))

theorem entry5_v87 :
    (V11 m outs c (Proc.devRef .tc main_v87) : Vec F S1x128 .f32)
      = tile2 (meanOf 0x49C35000#32 (outs 10 main_v69_0 c)) :=
  (host5_v87 (V10 m outs c)).trans (congrArg (fun s => tile2 (meanOf 0x49C35000#32 s)) V10_v69_0)

theorem entry5_v91 :
    (V11 m outs c (Proc.devRef .tc main_v91) : Vec F S1x128 .f32)
      = tile2 (varOf 0x49C35000#32 (outs 10 main_v69_0 c) (outs 10 main_v69_1 c)) :=
  (host5_v91 (V10 m outs c)).trans
    (congrArg₂ (fun s q => tile2 (varOf 0x49C35000#32 s q)) V10_v69_0 (Function.update_self ..))

theorem entry5_v95 :
    (V11 m outs c (Proc.devRef .tc main_v95) : Vec F S1x128 .f32)
      = tile2 (m ((c : Thread nD τ).loc main_arg16)) :=
  (host5_v95 (V10 m outs c)).trans (congrArg tile2 (up10 (up8 (up6 (up4 (up2 rfl))))))

theorem entry5_v99 :
    (V11 m outs c (Proc.devRef .tc main_v99) : Vec F S1x128 .f32)
      = tile2 (m ((c : Thread nD τ).loc main_arg17)) :=
  (host5_v99 (V10 m outs c)).trans (congrArg tile2 (up10 (up8 (up6 (up4 (up2 rfl))))))

theorem result0 :
    (V13 m outs c (Proc.devRef .tc main_v66) : Vec F S100000x64 .f32)
      = unfold2 (outs 8 main_v65 c) :=
  (V13_of m outs c main_v66 (by decide)).trans <| (V12_of m outs c main_v66 (by decide)).trans <|
    up11 ((host4_v66 (V8 m outs c)).trans (congrArg unfold2 (Function.update_self ..)))

theorem result1 :
    (V13 m outs c (Proc.devRef .tc main_v101) : Vec F S1600000x64 .f32)
      = unfoldE (outs 12 main_v100 c) :=
  (host6_v101 (V12 m outs c)).trans (congrArg unfoldE (Function.update_self ..))

end Cert.KernelIdeal.Hand

end
-- ==== Proof.KI.Val0.lean ====
import proofs.«419296_j32031866093810_3_alg».proof.Proof.KI.Reg0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

def nodeProj {n : ℕ} (X : (⟨2, ![n, 64]⟩ : Shape).Idx → EReal) (W : S64x256.Idx → EReal) (b : S1x256.Idx → EReal)
    (r : Fin n) (q : Fin 256) : EReal :=
  (∑ k : Fin 64, X (ix2 r k) * W (ix2 k q)) + b (ix2 (0 : Fin 1) q)

-- With no rounding the body's sum of products plus the bias row is `nodeProj` of the three loaded blocks.
theorem pay0_1_apply (x0 : Vec Ideal S5000x64 .f32) (x1 : Vec Ideal S64x256 .f32) (x2 : Vec Ideal S1x256 .f32)
    (r : Fin 5000) (q : Fin 256) : k0_pay1 x0 x1 x2 (ix2 r q) = nodeProj x0 x1 x2 r q := by
  unfold k0_pay1 nodeProj
  simp only [matmul]
  rw [addf_apply, Ideal.matmul_constant_zero_apply, shapeCast_self, shapeCast_self, broadcastTo_1b_ab_apply]
  congr 1
  rw [← Equiv.sum_comp (contrEquiv1 dot_S5000x64_S64x256_S5000x256_1_0_0_1_n_n 64 (by decide) (by decide)).symm]
  exact Finset.sum_congr rfl fun k _ => congrArg₂ (· * ·)
    (congrArg x0 (Shape.idx_ext₂ rfl
      ((dot_S5000x64_S64x256_S5000x256_1_0_0_1_n_n.lhsIdx_val_of_single (cl := 1) rfl (ix2 r q) _).trans (contrEquiv1_symm_val _ 64 _ _ k))))
    (congrArg x1 (Shape.idx_ext₂
      ((dot_S5000x64_S64x256_S5000x256_1_0_0_1_n_n.rhsIdx_val_of_single (cr := 0) rfl (ix2 r q) _).trans (contrEquiv1_symm_val _ 64 _ _ k)) rfl))

def projLow (X : S100000x64.Idx → EReal) (W : S64x256.Idx → EReal) (b : S1x256.Idx → EReal) : S100000x128.Idx → EReal :=
  fun i => nodeProj X W b (i 0) ⟨(i 1).val, by have := idx2_lt1 i; omega⟩

def projMid (X : S100000x64.Idx → EReal) (W : S64x256.Idx → EReal) (b : S1x256.Idx → EReal) : S100000x64.Idx → EReal :=
  fun i => nodeProj X W b (i 0) ⟨128 + (i 1).val, by have := idx2_lt1 i; omega⟩

def projHigh (X : S100000x64.Idx → EReal) (W : S64x256.Idx → EReal) (b : S1x256.Idx → EReal) : S100000x64.Idx → EReal :=
  fun i => nodeProj X W b (i 0) ⟨192 + (i 1).val, by have := idx2_lt1 i; omega⟩

variable (V : (c : Dev nD) → (b : Ref sig .tc) → Buf (Elt Ideal) ((c : Thread nD τ).loc b))

theorem zeros0_2 : (![0, 0] : Fin 2 → Nat) = fun _ => 0 := funext fun a => by fin_cases a <;> rfl

theorem idx_facts0 : ∀ t : Fin cfg0.N,
    (∀ a : Fin 2, win0_1.index t a = 0 ∧ win0_2.index t a = 0)
    ∧ win0_0.index t 0 = t.val ∧ win0_0.index t 1 = 0
    ∧ win0_3.index t 0 = t.val ∧ win0_3.index t 1 = 0
    ∧ win0_4.index t 0 = t.val ∧ win0_4.index t 1 = 0
    ∧ win0_5.index t 0 = t.val ∧ win0_5.index t 1 = 0 :=
  (by decide +kernel : ∀ t : Fin grid0.N, _)

def row0 (t : Fin cfg0.N) (r : Fin 5000) : Fin 100000 :=
  ⟨t.val * 5000 + r.val, by have := t.isLt; have : cfg0.N = 20 := N_0; omega⟩

-- An index whose coordinates are `a * 5000 + r` and `b * m + j` with `a = t` and `b = 0` is `(5000 t + r, j)`.
theorem ext0 {m : ℕ} {x : (⟨2, ![100000, m]⟩ : Shape).Idx} (t : Fin cfg0.N) (r : Fin 5000) (j : Fin m) {a b : ℕ}
    (ha : a = t.val) (hb : b = 0) (h0 : (x 0 : ℕ) = a * 5000 + 1 * r.val) (h1 : (x 1 : ℕ) = b * m + 1 * j.val) :
    x = ix2 (row0 t r) j := by
  subst ha hb
  exact Shape.idx_ext₂ (h0.trans (show _ = t.val * 5000 + r.val by omega)) (h1.trans (show _ = j.val by omega))

-- Row `r` of block `t` is row `5000 t + r` of the array, in the same column.
theorem emb0 (t : Fin cfg0.N) (r : Fin 5000) :
    (∀ k, ((cfg0.win 0).blk t).view.emb (ix2 r k) = ix2 (row0 t r) k)
    ∧ (∀ j, ((cfg0.win 3).blk t).view.emb (ix2 r j) = ix2 (row0 t r) j)
    ∧ (∀ j, ((cfg0.win 4).blk t).view.emb (ix2 r j) = ix2 (row0 t r) j)
    ∧ ∀ j, ((cfg0.win 5).blk t).view.emb (ix2 r j) = ix2 (row0 t r) j := by
  obtain ⟨-, a0, a1, b0, b1, c0, c1, d0, d1⟩ := idx_facts0 t
  exact ⟨fun k => ext0 t r k a0 a1 rfl rfl, fun j => ext0 t r j b0 b1 rfl rfl,
    fun j => ext0 t r j c0 c1 rfl rfl, fun j => ext0 t r j d0 d1 rfl rfl⟩

-- Where the block index is zero on both axes the block is the whole array.
theorem iblk0_whole (c : Dev nD) (t : Fin cfg0.N) :
    iblk0 V c 1 t = V c (Pipeline.arrRef spec0 1) ∧ iblk0 V c 2 t = V c (Pipeline.arrRef spec0 2) :=
  ⟨funext fun y => congrArg (V c _) (funext fun a => Fin.ext
      (Pipeline.Window.rect_emb_val_of_index_zero win0_1 t a ((idx_facts0 t).1 a).1 y)),
   funext fun y => congrArg (V c _) (funext fun a => Fin.ext
      (Pipeline.Window.rect_emb_val_of_index_zero win0_2 t a ((idx_facts0 t).1 a).2 y))⟩

-- Columns `o ..` of the body's value at row `r` of point `t` are those columns of the projection of the whole arrays at row `5000 t + r`.
theorem nodeProj0_block (c : Dev nD) (t : Fin cfg0.N) {m : ℕ} (o : ℕ) (h : S5000x256.Slices ![0, o] ⟨2, ![5000, m]⟩)
    (r : Fin 5000) (j : Fin m) (q : Fin 256) (hq : q.val = o + j.val) :
    extractStridedSlice ⟨2, ![5000, m]⟩ ![0, o] (k0_pay1 (iblk0 V c 0 t) (iblk0 V c 1 t) (iblk0 V c 2 t)) h (ix2 r j)
      = nodeProj (V c (Pipeline.arrRef spec0 0)) (V c (Pipeline.arrRef spec0 1)) (V c (Pipeline.arrRef spec0 2)) (row0 t r) q := by
  rw [slice2_axis1_apply o _ h r j q hq, pay0_1_apply, (iblk0_whole V c t).1, (iblk0_whole V c t).2]
  unfold nodeProj
  exact congrArg (· + _) (Finset.sum_congr rfl fun k _ =>
    congrArg (· * _) (congrArg (V c _) ((emb0 t r).1 k)))

-- A load of a whole block reads it.
theorem ld0 {n0 n1 : ℕ} {e : EltTy} (inb) (X : (⟨2, ![n0, n1]⟩ : Shape).Idx → Elt Ideal e) :
    View.ld X (Rect.unit ![0, 0] ![n0, n1] inb) = X := View.ld_unit_zero zeros0_2 inb X

-- Every row `R < 100000` is row `R % 5000` of block `R / 5000`.
theorem rows0_cover {C : ℕ} (i : (⟨2, ![100000, C]⟩ : Shape).Idx) :
    ∃ (t : Fin cfg0.N) (r : Fin 5000), ix2 (row0 t r) (i 1) = i :=
  have h := idx2_lt0 i
  ⟨⟨(i 0).val / 5000, by have : cfg0.N = 20 := N_0; omega⟩, ⟨(i 0).val % 5000, Nat.mod_lt _ (by decide)⟩,
    Shape.idx_ext₂ (Nat.div_add_mod' _ _) rfl⟩

theorem arr0_3 (c : Dev nD) : (dat0 V c).arrAt 3 cfg0.N
    = projLow (V c (Pipeline.arrRef spec0 0)) (V c (Pipeline.arrRef spec0 1)) (V c (Pipeline.arrRef spec0 2)) :=
  (dat0 V c).arrAt_eq_of_cover 3 _ (fun t _ => by
    rw [Dat.flushed, after0_3]
    unfold out0_3
    rw [View.canon_unit_zero zeros0_2, ld0, ld0, ld0]
    funext y
    obtain ⟨r, j, rfl⟩ : ∃ r j, y = ix2 r j := ⟨y 0, y 1, eq_ix2 y⟩
    show _ = projLow _ _ _ (((cfg0.win 3).blk t).view.emb (ix2 r j))
    rw [(emb0 t r).2.1]
    exact nodeProj0_block V c t _ slices_S5000x256_o0_0_S5000x128 r j _ (Nat.zero_add _).symm)
    fun i => let ⟨t, r, h⟩ := rows0_cover i; ⟨t, flush0_3 t, ((emb0 t r).2.1 _).trans h ▸ View.emb_mem_set _ _⟩

theorem arr0_4 (c : Dev nD) : (dat0 V c).arrAt 4 cfg0.N
    = projMid (V c (Pipeline.arrRef spec0 0)) (V c (Pipeline.arrRef spec0 1)) (V c (Pipeline.arrRef spec0 2)) :=
  (dat0 V c).arrAt_eq_of_cover 4 _ (fun t _ => by
    rw [Dat.flushed, after0_4]
    unfold out0_4
    rw [View.canon_unit_zero zeros0_2, ld0, ld0, ld0]
    funext y
    obtain ⟨r, j, rfl⟩ : ∃ r j, y = ix2 r j := ⟨y 0, y 1, eq_ix2 y⟩
    show _ = projMid _ _ _ (((cfg0.win 4).blk t).view.emb (ix2 r j))
    rw [(emb0 t r).2.2.1]
    exact nodeProj0_block V c t _ slices_S5000x256_o0_128_S5000x64 r j _ rfl)
    fun i => let ⟨t, r, h⟩ := rows0_cover i; ⟨t, flush0_4 t, ((emb0 t r).2.2.1 _).trans h ▸ View.emb_mem_set _ _⟩

theorem arr0_5 (c : Dev nD) : (dat0 V c).arrAt 5 cfg0.N
    = projHigh (V c (Pipeline.arrRef spec0 0)) (V c (Pipeline.arrRef spec0 1)) (V c (Pipeline.arrRef spec0 2)) :=
  (dat0 V c).arrAt_eq_of_cover 5 _ (fun t _ => by
    rw [Dat.flushed, after0_5]
    unfold out0_5
    rw [View.canon_unit_zero zeros0_2, ld0, ld0, ld0]
    funext y
    obtain ⟨r, j, rfl⟩ : ∃ r j, y = ix2 r j := ⟨y 0, y 1, eq_ix2 y⟩
    show _ = projHigh _ _ _ (((cfg0.win 5).blk t).view.emb (ix2 r j))
    rw [(emb0 t r).2.2.2]
    exact nodeProj0_block V c t _ slices_S5000x256_o0_192_S5000x64 r j _ rfl)
    fun i => let ⟨t, r, h⟩ := rows0_cover i; ⟨t, flush0_5 t, ((emb0 t r).2.2.2 _).trans h ▸ View.emb_mem_set _ _⟩

end Cert.KernelIdeal.Hand

end
-- ==== Proof.KI.Val1.lean ====
import proofs.«419296_j32031866093810_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

abbrev dims1 : DotDims S4000x64 S64x64 S4000x64 := dot_S4000x64_S64x64_S4000x64_1_0_0_1_n_n

/-- Row `p` of the left block times column `q` of the weight: the one contracted axis re-indexed by its coordinate. -/
theorem matmul1_apply (A : FVec Ideal S4000x64 .bf16) (B : FVec Ideal S64x64 .bf16) (p : Fin 4000) (q : Fin 64) :
    matmul dims1 none A B (constant (F := Ideal) S4000x64 .f32 0x00000000#32) (ix2 p q) = ∑ k : Fin 64, A (ix2 p k) * B (ix2 k q) := by
  show FloatOps.matmul dims1 none A B _ (ix2 p q) = _
  rw [Ideal.matmul_constant_zero_apply, ← Equiv.sum_comp (contrEquiv1 dims1 64 rfl rfl).symm]
  exact Finset.sum_congr rfl fun k _ => congrArg₂ (· * ·)
    (congrArg A (Shape.idx_ext₂ rfl ((dims1.lhsIdx_val_of_single (cl := 1) rfl (ix2 p q) _).trans (contrEquiv1_symm_val _ 64 _ _ k))))
    (congrArg B (Shape.idx_ext₂ ((dims1.rhsIdx_val_of_single (cr := 0) rfl (ix2 p q) _).trans (contrEquiv1_symm_val _ 64 _ _ k)) rfl))

def preAt {n : Nat} (e a b : (⟨2, ![n, 64]⟩ : Shape).Idx → EReal) (w : S64x64.Idx → EReal) (bias : S1x64.Idx → EReal)
    (p : Fin n) (q : Fin 64) : EReal :=
  (∑ k : Fin 64, e (ix2 p k) * w (ix2 k q)) + bias (ix2 (0 : Fin 1) q) + a (ix2 p q) + b (ix2 p q)

section Pay
variable (x0 x1 x2 x3 : Vec Ideal S4000x64 .f32) (w : Vec Ideal S64x64 .f32) (b : Vec Ideal S1x64 .f32) (p : Fin 4000) (q : Fin 64)

theorem pay1_1_apply : k1_pay1 x0 w b x1 x2 (ix2 p q) = preAt x0 x1 x2 w b p q := by
  unfold k1_pay1 preAt
  simp only [shapeCast_self]
  rw [addf_apply, addf_apply, addf_apply, matmul1_apply, broadcastTo_1b_ab_apply]
  rfl

theorem pay1_2_apply : k1_pay2 x0 w b x1 x2 (ix2 p q) = Ideal.logistic (preAt x0 x1 x2 w b p q) :=
  congrArg Ideal.logistic (pay1_1_apply x0 x1 x2 w b p q)

theorem pay1_3_apply : k1_pay3 x0 w b x1 x2 x3 (ix2 p q) = x3 (ix2 p q) * Ideal.logistic (preAt x0 x1 x2 w b p q) := by
  unfold k1_pay3
  simp only [shapeCast_self]
  show mulf x3 (k1_pay2 x0 w b x1 x2) (ix2 p q) = _
  rw [mulf_apply, pay1_2_apply]

end Pay

variable (V : (c : Dev nD) → (b : Ref sig .tc) → Buf (Elt Ideal) ((c : Thread nD τ).loc b))

abbrev ar1 (c : Dev nD) (w : Fin 9) := V c (Pipeline.arrRef spec1 w)

theorem hz1 : (![0, 0] : Fin 2 → Nat) = fun _ => 0 := funext fun a => by fin_cases a <;> rfl

-- A load of a whole block reads it.
theorem ld1 {n0 n1 : ℕ} {e : EltTy} (inb) (X : (⟨2, ![n0, n1]⟩ : Shape).Idx → Elt Ideal e) :
    View.ld X (Rect.unit ![0, 0] ![n0, n1] inb) = X := View.ld_unit_zero hz1 inb X

theorem idx1_e : ∀ t : Fin grid1.N, win1_0.index t (0 : Fin 2) = t.val ∧ win1_0.index t (1 : Fin 2) = 0 := by decide +kernel
theorem idx1_w : ∀ (t : Fin grid1.N) (a : Fin 2), win1_4.index t a = 0 := by decide +kernel

/-- Entry `(p, q)` of an edge-sized window's block at point `t` is entry `(4000 t + p, q)` of its array. -/
theorem emb1 (t : Fin cfg1.N) (p : Fin 4000) (q : Fin 64) (r : Fin 1600000) (hr : r.val = 4000 * t.val + p.val) :
    ((cfg1.win 0).blk t).view.emb (ix2 p q) = (ix2 r q : S1600000x64.Idx) := by
  obtain ⟨e0, e1⟩ := idx1_e t
  exact Shape.idx_ext₂ (show win1_0.index t (0 : Fin 2) * 4000 + 1 * p.val = r.val by omega)
    (show win1_0.index t (1 : Fin 2) * 64 + 1 * q.val = q.val by omega)

-- Each edge operand's block at point `t` is rows `4000 t ..` of its array; the weight's and the bias's block is the whole array.
theorem preAt_blk1 (c : Dev nD) (t : Fin cfg1.N) (p : Fin 4000) (q : Fin 64) (r : Fin 1600000) (hr : r.val = 4000 * t.val + p.val) :
    preAt (iblk1 V c 0 t : Vec Ideal S4000x64 .f32) (iblk1 V c 1 t : Vec Ideal S4000x64 .f32) (iblk1 V c 2 t : Vec Ideal S4000x64 .f32)
        (iblk1 V c 4 t : Vec Ideal S64x64 .f32) (iblk1 V c 5 t : Vec Ideal S1x64 .f32) p q
      = preAt (ar1 V c 0) (ar1 V c 1) (ar1 V c 2) (ar1 V c 4) (ar1 V c 5) r q :=
  congrArg₂ (· + ·) (congrArg₂ (· + ·) (congrArg₂ (· + ·)
      (Finset.sum_congr rfl fun k _ => congrArg₂ (· * ·) (congrArg (ar1 V c 0) (emb1 t p k r hr))
        (congrArg (ar1 V c 4) (funext fun a => Fin.ext (win1_4.rect_emb_val_of_index_zero t a (idx1_w t a) _))))
      (congrArg (ar1 V c 5) (funext fun a => Fin.ext (win1_5.rect_emb_val_of_index_zero t a (idx1_w t a) _))))
    (congrArg (ar1 V c 1) (emb1 t p q r hr))) (congrArg (ar1 V c 2) (emb1 t p q r hr))

section Edge
variable (e a b g : Vec Ideal S1600000x64 .f32) (w : Vec Ideal S64x64 .f32) (bias : Vec Ideal S1x64 .f32) (r : Fin 1600000) (q : Fin 64)

def edgePre : Vec Ideal S1600000x64 .f32 := fun i => preAt e a b w bias (i 0) (i 1)
def edgeGate : Vec Ideal S1600000x64 .f32 := fun i => Ideal.logistic (edgePre e a b w bias i)
def edgeMsg : Vec Ideal S1600000x64 .f32 := fun i => g (ix2 (i 0) (i 1)) * edgeGate e a b w bias i

theorem edgePre_apply :
    edgePre e a b w bias (ix2 r q) = (∑ k : Fin 64, e (ix2 r k) * w (ix2 k q)) + bias (ix2 (0 : Fin 1) q) + a (ix2 r q) + b (ix2 r q) := rfl
theorem edgeGate_apply : edgeGate e a b w bias (ix2 r q) = Ideal.logistic (edgePre e a b w bias (ix2 r q)) := rfl
theorem edgeMsg_apply : edgeMsg e a b g w bias (ix2 r q) = g (ix2 r q) * edgeGate e a b w bias (ix2 r q) := rfl

end Edge

/-- A block-shaped `P` that agrees with `G` at the block's rows is block `t` of `G`. -/
theorem eq_read1 (t : Fin cfg1.N) (P : Vec Ideal S4000x64 .f32) (G : Vec Ideal S1600000x64 .f32)
    (h : ∀ (p : Fin 4000) (q : Fin 64) (r : Fin 1600000), r.val = 4000 * t.val + p.val → P (ix2 p q) = G (ix2 r q)) :
    P = ((cfg1.win 0).blk t).view.read (Elt Ideal) G := by
  funext j
  obtain ⟨p, q, rfl⟩ : ∃ (p : Fin 4000) (q : Fin 64), j = ix2 p q := ⟨j 0, j 1, eq_ix2 j⟩
  have hN : cfg1.N = 400 := N_1
  have ht : t.val < 400 := hN ▸ t.isLt
  obtain ⟨r, hr⟩ : ∃ r : Fin 1600000, r.val = 4000 * t.val + p.val := ⟨⟨4000 * t.val + p.val, by have := p.isLt; omega⟩, rfl⟩
  exact (h p q r hr).trans (congrArg G (emb1 t p q r hr)).symm

/-- Row `r` of an edge-sized array lies in the block of point `r / 4000`. -/
theorem tile1 (i : S1600000x64.Idx) : ∃ t : Fin cfg1.N, i ∈ ((cfg1.win 0).blk t).view.set := by
  have hN : cfg1.N = 400 := N_1
  have h0 := idx2_lt0 i
  obtain ⟨t, ht⟩ : ∃ t : Fin cfg1.N, t.val = (i 0).val / 4000 := ⟨⟨(i 0).val / 4000, by rw [hN]; omega⟩, rfl⟩
  obtain ⟨p, hp⟩ : ∃ p : Fin 4000, p.val = (i 0).val % 4000 := ⟨⟨(i 0).val % 4000, by omega⟩, rfl⟩
  have h := (emb1 t p (i 1) (i 0) (by omega)).trans (eq_ix2 i).symm
  exact ⟨t, h ▸ ((cfg1.win 0).blk t).view.emb_mem_set (ix2 p (i 1))⟩

theorem arr1_6 (c : Dev nD) : (dat1 (F := Ideal) V c).arrAt 6 cfg1.N
    = edgePre (V c (Pipeline.arrRef spec1 0)) (V c (Pipeline.arrRef spec1 1)) (V c (Pipeline.arrRef spec1 2)) (V c (Pipeline.arrRef spec1 4)) (V c (Pipeline.arrRef spec1 5)) :=
  (dat1 V c).arrAt_eq_of_cover 6 _ (fun t _ => by
    rw [Dat.flushed, after1_6, out1_6, View.canon_unit_zero hz1]
    repeat rw [ld1]
    exact eq_read1 t _ _ fun p q r hr => (pay1_1_apply _ _ _ _ _ p q).trans (preAt_blk1 V c t p q r hr))
    fun i => (tile1 i).imp fun t h => ⟨flush1_6 t, h⟩

theorem arr1_7 (c : Dev nD) : (dat1 (F := Ideal) V c).arrAt 7 cfg1.N
    = edgeGate (V c (Pipeline.arrRef spec1 0)) (V c (Pipeline.arrRef spec1 1)) (V c (Pipeline.arrRef spec1 2)) (V c (Pipeline.arrRef spec1 4)) (V c (Pipeline.arrRef spec1 5)) :=
  (dat1 V c).arrAt_eq_of_cover 7 _ (fun t _ => by
    rw [Dat.flushed, after1_7, out1_7, View.canon_unit_zero hz1]
    repeat rw [ld1]
    exact eq_read1 t _ _ fun p q r hr => (pay1_2_apply _ _ _ _ _ p q).trans (congrArg Ideal.logistic (preAt_blk1 V c t p q r hr)))
    fun i => (tile1 i).imp fun t h => ⟨flush1_7 t, h⟩

theorem arr1_8 (c : Dev nD) : (dat1 (F := Ideal) V c).arrAt 8 cfg1.N
    = edgeMsg (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 8 _ (fun t _ => by
    rw [Dat.flushed, after1_8, out1_8, View.canon_unit_zero hz1]
    repeat rw [ld1]
    exact eq_read1 t _ _ fun p q r hr => (pay1_3_apply _ _ _ _ _ _ p q).trans
      (congr (congrArg _ (congrArg (ar1 V c 3) (emb1 t p q r hr))) (congrArg Ideal.logistic (preAt_blk1 V c t p q r hr))))
    fun i => (tile1 i).imp fun t h => ⟨flush1_8 t, h⟩

end Cert.KernelIdeal.Hand
-- ==== Proof.Bridge.KTerms.lean ====
import proofs.«419296_j32031866093810_3_alg».proof.Proof.KI.HostRead
import proofs.«419296_j32031866093810_3_alg».proof.Proof.KI.Val0
import proofs.«419296_j32031866093810_3_alg».proof.Proof.KI.Val1
import proofs.«419296_j32031866093810_3_alg».proof.Proof.Ref.Stages
import Idealize.ShloMosaic.Lib.ValueIdx

noncomputable section

namespace Cert.Hand.Bridge

open Idealize.ShloMosaic Idealize.ShloMosaic.TcCoe Idealize.ShloMosaic.ValueIdx
open Cert.KernelIdeal Cert.KernelIdeal.Hand
open Cert.ReferenceIdeal.Hand (Inputs)

-- Functions of a rank-2 index are equal when they agree at every pair of coordinates.
theorem funext_ix2 {α : Type} {n0 n1 : Nat} {f g : (⟨2, ![n0, n1]⟩ : Shape).Idx → α}
    (h : ∀ a b, f (ix2 a b) = g (ix2 a b)) : f = g :=
  funext fun i => by rw [eq_ix2 i]; exact h _ _

variable (a : Inputs Ideal)

def wcat : Vec Ideal S64x256 .f32 := catW a.wSrcGate a.wDstUpd a.wDstGate a.wSrcUpd

def bcat : Vec Ideal S1x256 .f32 := catB a.bSrcGate a.bDstUpd a.bDstGate a.bSrcUpd

def stack : Vec Ideal S100000x128 .f32 := projLow a.nodes (wcat a) (bcat a)

def edstK : Vec Ideal S100000x64 .f32 := projMid a.nodes (wcat a) (bcat a)

def xsK : Vec Ideal S100000x64 .f32 := projHigh a.nodes (wcat a) (bcat a)

def esg : Vec Ideal S1600000x64 .f32 := gatherLo (stack a) a.src

def bhg : Vec Ideal S1600000x64 .f32 := gatherHi (stack a) a.src

def edg : Vec Ideal S1600000x64 .f32 := gatherNarrow (edstK a) a.dst

def mK : Vec Ideal S1600000x64 .f32 := edgePre a.edges (esg a) (edg a) a.wEdgeGate (asRow a.bEdgeGate)

def sigK : Vec Ideal S1600000x64 .f32 := edgeGate a.edges (esg a) (edg a) a.wEdgeGate (asRow a.bEdgeGate)

def sighK : Vec Ideal S1600000x64 .f32 := edgeMsg a.edges (esg a) (edg a) (bhg a) a.wEdgeGate (asRow a.bEdgeGate)

def xpreK : Vec Ideal S100000x64 .f32 := nodeUpd (xsK a) a.dst (sighK a) (sigK a)

end Cert.Hand.Bridge

end
-- ==== Proof.KI.Val2.lean ====
import proofs.«419296_j32031866093810_3_alg».proof.Proof.KI.Reg2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

theorem init2_apply (y : S1x128.Idx) : init2_1 (F := Ideal) y = 0 ∧ init2_2 (F := Ideal) y = 0 := by
  unfold init2_1 init2_2 k2_pay1 k2_pay2
  constructor <;> (rw [View.canon_unit_zero hz2]; exact Ideal.ofBits_zero_f32)

-- A leading unit axis changes no entry, and over the extended reals a reduction along one axis is the plain sum.
theorem sum2_col (x : Vec Ideal S10000x128 .f32) (y : S1x128.Idx) :
    shapeCast S1x128 (multiReduction (F := Ideal) .add [0] S128 x 0x00000000#32 reduces_S10000x128_S128 (.inl rfl) rfl) shapeCasts_S128_S1x128 y
      = ∑ k : Fin 10000, x (ix2 k (y 1)) := by
  refine (shapeCast_addUnit_apply ![128] _ shapeCasts_S128_S1x128 y).trans ?_
  refine (Ideal.multiReduction_add_single x _ reduces_S10000x128_S128 _ _ _).trans ?_
  exact Finset.sum_congr rfl fun k _ => congrArg x (Shape.idx_ext₂ rfl rfl)

theorem out2_apply (x0 : Vec Ideal S10000x128 .f32) (a : Vec Ideal S1x128 .f32) (y : S1x128.Idx) :
    out2_1 x0 a y = a y + ∑ k : Fin 10000, x0 (ix2 k (y 1)) ∧
    out2_2 x0 a y = a y + ∑ k : Fin 10000, x0 (ix2 k (y 1)) * x0 (ix2 k (y 1)) := by
  unfold out2_1 out2_2
  rw [View.canon_unit_zero hz2, View.canon_unit_zero hz2]
  unfold k2_pay4 k2_pay5 k2_pay3
  simp only [View.ld_unit_zero (S := S10000x128) hz2, View.ld_unit_zero (S := S1x128) hz2, shapeCast_self]
  exact ⟨congrArg (a y + ·) (sum2_col x0 y), congrArg (a y + ·) (sum2_col (show FVec Ideal S10000x128 .f32 from mulf x0 x0) y)⟩

abbrev xarr2 (c : Dev nD) : Vec Ideal S50000x128 .f32 := V c (Pipeline.arrRef spec2 0)

abbrev xblk2 (c : Dev nD) (t : Fin cfg2.N) : Vec Ideal S10000x128 .f32 := iblk2 V c 0 t

def rows2 (c : Dev nD) (r : ℕ) (j : Fin 128) : EReal := if h : r < 50000 then xarr2 V c (ix2 ⟨r, h⟩ j) else 0

theorem idx2_in : ∀ t : Fin cfg2.N, win2_0.index t (0 : Fin 2) = t.val ∧ win2_0.index t (1 : Fin 2) = 0 :=
  (by decide +kernel : ∀ t : Fin grid2.N, _)

theorem whole2_mem {G : Pipeline.Grid} (w : Pipeline.Window sig G) (t : Fin G.N)
    (h : ∀ a, w.index t a = 0 ∧ w.xsize (G.coords t) a = w.shape.size a) (i : w.shape.Idx) : i ∈ (w.rect t).set := by
  rw [Rect.mem_set_unit]
  intro a
  show w.index t a * w.size a ≤ (i a : Nat) ∧ (i a : Nat) < w.index t a * w.size a + w.xsize (G.coords t) a
  rw [(h a).1, (h a).2, Nat.zero_mul, Nat.zero_add]
  exact ⟨Nat.zero_le _, (i a).isLt⟩

theorem whole2 : ∀ (t : Fin cfg2.N) (a : Fin 2),
    (win2_1.index t a = 0 ∧ win2_1.xsize (grid2.coords t) a = ![1, 128] a) ∧
    win2_2.index t a = 0 ∧ win2_2.xsize (grid2.coords t) a = ![1, 128] a :=
  (by decide +kernel : ∀ (t : Fin grid2.N) (a : Fin 2), _)

-- The input block at point `t` is rows `10000 t` to `10000 (t + 1)` of the array, so its column sums are sums over those rows.
theorem blk2_sum (g : EReal → EReal) (c : Dev nD) (t : Fin cfg2.N) (j : Fin 128) :
    ∑ k : Fin 10000, g (xblk2 V c t (ix2 k j)) = ∑ k ∈ Finset.range 10000, g (rows2 V c (10000 * t.val + k) j) := by
  have hN : t.val < 5 := lt_of_lt_of_eq t.isLt (show cfg2.N = 5 from N_2)
  obtain ⟨e0, e1⟩ := idx2_in t
  rw [← Fin.sum_univ_eq_sum_range (fun k => g (rows2 V c (10000 * t.val + k) j)) 10000]
  refine Finset.sum_congr rfl fun k _ => congrArg g ?_
  have hk : 10000 * t.val + k.val < 50000 := by have := k.isLt; omega
  unfold rows2 xblk2 iblk2
  rw [dif_pos hk, View.read_apply]
  show xarr2 V c _ = xarr2 V c _
  congr 1
  funext a; apply Fin.ext
  match a with
  | ⟨0, _⟩ => show win2_0.index t (0 : Fin 2) * 10000 + 1 * k.val = 10000 * t.val + k.val; rw [e0]; omega
  | ⟨1, _⟩ => show win2_0.index t (1 : Fin 2) * 128 + 1 * j.val = j.val; rw [e1]; omega

-- By induction on the point: each adds its block's rows to what the points before left, the first to a zero row.
theorem acc2_last (g : EReal → EReal) (c : Dev nD)
    (o : Vec Ideal S10000x128 .f32 → Vec Ideal S1x128 .f32 → Vec Ideal S1x128 .f32) (z : Vec Ideal S1x128 .f32)
    (acc : (n : ℕ) → n < cfg2.N → Vec Ideal S1x128 .f32)
    (ho : ∀ x a y, o x a y = a y + ∑ k : Fin 10000, g (x (ix2 k (y 1)))) (hz : ∀ y, z y = 0)
    (h0 : ∀ h, acc 0 h = o (xblk2 V c ⟨0, h⟩) z)
    (hs : ∀ n h, acc (n + 1) h = o (xblk2 V c ⟨n + 1, h⟩) (acc n (Nat.lt_of_succ_lt h)))
    (t : Fin cfg2.N) (ht : t.val % 5 = 4) :
    acc t.val t.isLt = fun y => ∑ r : Fin 50000, g (xarr2 V c (ix2 r (y 1))) := by
  have key : ∀ (n : ℕ) (h : n < cfg2.N) (y : S1x128.Idx),
      acc n h y = ∑ r ∈ Finset.range (10000 * (n + 1)), g (rows2 V c r (y 1)) := by
    intro n
    induction n with
    | zero =>
      intro h y
      rw [h0, ho, hz, zero_add, blk2_sum V g c ⟨0, h⟩ (y 1)]
      refine Finset.sum_congr rfl fun k _ => ?_
      show g (rows2 V c (10000 * 0 + k) (y 1)) = _
      rw [Nat.mul_zero, Nat.zero_add]
    | succ n ih =>
      intro h y
      rw [hs, ho, ih, blk2_sum V g c ⟨n + 1, h⟩ (y 1),
        show 10000 * (n + 1 + 1) = 10000 * (n + 1) + 10000 from by omega, Finset.sum_range_add]
  have hN : cfg2.N = 5 := N_2
  funext y
  refine (key t.val t.isLt y).trans ?_
  rw [show 10000 * (t.val + 1) = 50000 from by have := t.isLt; omega, Finset.sum_range]
  refine Finset.sum_congr rfl fun r _ => congrArg g ?_
  unfold rows2; exact (dif_pos r.isLt).trans rfl

def colsum2 (X : Vec Ideal S50000x128 .f32) : Vec Ideal S1x128 .f32 := fun y => ∑ r : Fin 50000, X (ix2 r (y 1))

def colsq2 (X : Vec Ideal S50000x128 .f32) : Vec Ideal S1x128 .f32 := fun y => ∑ r : Fin 50000, X (ix2 r (y 1)) * X (ix2 r (y 1))

def final2_pt : Fin cfg2.N := ⟨cfg2.N - 1, by rw [show cfg2.N = 5 from N_2]; decide⟩

theorem arr2_1 (c : Dev nD) : (dat2 (F := Ideal) V c).arrAt 1 cfg2.N = colsum2 (V c (Pipeline.arrRef spec2 0)) :=
  (dat2 V c).arrAt_eq_of_cover 1 (colsum2 (xarr2 V c)) (fun t hf => by
    show (cfg2.win 1).cut (grid2.coords t) ((dat2 V c).after 1 t) = _
    rw [after2_1, acc2_last V id c out2_1 init2_1 (acc2_1 V c) (fun x a y => (out2_apply x a y).1) (fun y => (init2_apply y).1)
      (fun _ => rfl) (fun _ _ => rfl) t ((flush2_1 t).mp hf)]
    have hz' : (fun a => win2_1.index t a * main_v34_0.ty.shape.size a) = fun _ => 0 :=
      funext fun a => by show win2_1.index t a * _ = 0; rw [(whole2 t a).1.1, Nat.zero_mul]
    exact (Memref.read_access_unit_zero (Elt Ideal) main_v34_0 hz' (fun a => by rw [congrFun hz' a]; simp) _).symm) fun i =>
    ⟨final2_pt, (flush2_1 final2_pt).mpr (by decide), by
      show i ∈ ((View.whole main_v34_0).slice (win2_1.rect final2_pt)).set
      rw [View.set_slice_whole]
      exact whole2_mem win2_1 final2_pt (fun a => (whole2 final2_pt a).1) i⟩

theorem arr2_2 (c : Dev nD) : (dat2 (F := Ideal) V c).arrAt 2 cfg2.N = colsq2 (V c (Pipeline.arrRef spec2 0)) :=
  (dat2 V c).arrAt_eq_of_cover 2 (colsq2 (xarr2 V c)) (fun t hf => by
    show (cfg2.win 2).cut (grid2.coords t) ((dat2 V c).after 2 t) = _
    rw [after2_2, acc2_last V (fun v => v * v) c out2_2 init2_2 (acc2_2 V c) (fun x a y => (out2_apply x a y).2) (fun y => (init2_apply y).2)
      (fun _ => rfl) (fun _ _ => rfl) t ((flush2_2 t).mp hf)]
    have hz' : (fun a => win2_2.index t a * main_v34_1.ty.shape.size a) = fun _ => 0 :=
      funext fun a => by show win2_2.index t a * _ = 0; rw [(whole2 t a).2.1, Nat.zero_mul]
    exact (Memref.read_access_unit_zero (Elt Ideal) main_v34_1 hz' (fun a => by rw [congrFun hz' a]; simp) _).symm) fun i =>
    ⟨final2_pt, (flush2_2 final2_pt).mpr (by decide), by
      show i ∈ ((View.whole main_v34_1).slice (win2_2.rect final2_pt)).set
      rw [View.set_slice_whole]
      exact whole2_mem win2_2 final2_pt (fun a => (whole2 final2_pt a).2) i⟩

end Cert.KernelIdeal.Hand

end
-- ==== Proof.KI.Val3.lean ====
import proofs.«419296_j32031866093810_3_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def bnAt3 (x mu var ga be : F .f32) : F .f32 :=
  FloatOps.addf (FloatOps.mulf (FloatOps.mulf (FloatOps.subf x mu) (FloatOps.rsqrt (FloatOps.addf var (Scalar.ofBits .f32 0x3727C5AC#32)))) ga) be

def bnSiluAt3 (x r mu var ga be : F .f32) : F .f32 :=
  FloatOps.addf r (FloatOps.mulf (bnAt3 x mu var ga be) (FloatOps.logistic (bnAt3 x mu var ga be)))

theorem bnSiluAt3_congr {x x' r r' mu mu' var var' ga ga' be be' : F .f32} (h0 : x = x') (h1 : r = r') (h2 : mu = mu')
    (h3 : var = var') (h4 : ga = ga') (h5 : be = be') : bnSiluAt3 x r mu var ga be = bnSiluAt3 x' r' mu' var' ga' be' := by
  subst h0 h1 h2 h3 h4 h5; rfl

-- the body's payload is entrywise in the two blocks, and reads each lane vector's one row at the entry's lane
theorem k3_pay1_idx (x0 x1 : Vec F S5000x128 .f32) (x2 x3 x4 x5 : Vec F S1x128 .f32) (j : S5000x128.Idx) :
    k3_pay1 x0 x2 x3 x4 x5 x1 j
      = bnSiluAt3 (x0 j) (x1 j) (x2 (ix2 0 (j 1))) (x3 (ix2 0 (j 1))) (x4 (ix2 0 (j 1))) (x5 (ix2 0 (j 1))) := by
  obtain ⟨p, l, rfl⟩ : ∃ (p : Fin 5000) (l : Fin 128), j = ix2 p l := ⟨j 0, j 1, eq_ix2 j⟩
  show _ = bnSiluAt3 (x0 (ix2 p l)) (x1 (ix2 p l)) (x2 (ix2 0 l)) (x3 (ix2 0 l)) (x4 (ix2 0 l)) (x5 (ix2 0 l))
  unfold k3_pay1 bnSiluAt3 bnAt3
  simp only [shapeCast_self]
  simp only [addf, mulf, subf, rsqrt, logistic, broadcast, broadcastTo_1b_ab_apply]

def bnSilu3 (x r : S50000x128.Idx → Elt F .f32) (mu var ga be : S1x128.Idx → Elt F .f32) : S50000x128.Idx → Elt F .f32 :=
  fun i => bnSiluAt3 (x i) (r i) (mu (ix2 (0 : Fin 1) (i 1))) (var (ix2 (0 : Fin 1) (i 1))) (ga (ix2 (0 : Fin 1) (i 1))) (be (ix2 (0 : Fin 1) (i 1)))

theorem bnSilu3_apply (x r : S50000x128.Idx → Elt F .f32) (mu var ga be : S1x128.Idx → Elt F .f32) (p : Fin 50000) (l : Fin 128) :
    bnSilu3 x r mu var ga be (ix2 p l)
      = bnSiluAt3 (x (ix2 p l)) (r (ix2 p l)) (mu (ix2 (0 : Fin 1) l)) (var (ix2 (0 : Fin 1) l)) (ga (ix2 (0 : Fin 1) l)) (be (ix2 (0 : Fin 1) l)) := rfl

variable (V : (c : Dev nD) → (b : Ref sig .tc) → Buf (Elt F) ((c : Thread nD τ).loc b))

theorem reg3_idx_facts : ∀ t : Fin cfg3.N, win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem reg3_hz : (![0, 0] : Fin 2 → Nat) = fun _ => 0 := funext fun a => by fin_cases a <;> rfl

-- entry j of point t's blocks sits at entry i of the arrays: row 5000 t + j 0, the same lane
theorem k3_pay1_at (c : Dev nD) (t : Fin cfg3.N) (j : S5000x128.Idx) (i : S50000x128.Idx)
    (hi0 : (i 0).val = 5000 * t.val + (j 0).val) (hi1 : (i 1).val = (j 1).val) :
    k3_pay1 (iblk3 V c 0 t) (iblk3 V c 2 t) (iblk3 V c 3 t) (iblk3 V c 4 t) (iblk3 V c 5 t) (iblk3 V c 1 t) j
      = bnSilu3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) i := by
  obtain ⟨-, -, _, _, _, _, _, _, _, _, _, _, _, _⟩ := reg3_idx_facts t
  have r0 : ∀ n, n = t.val → n * 5000 + 1 * (j 0).val = (i 0).val := fun n h => by omega
  have r1 : ∀ n, n = 0 → n * 128 + 1 * (j 1).val = (i 1).val := fun n h => by omega
  have z0 : ∀ n, n = 0 → n * 1 + 1 * 0 = 0 := fun n h => by omega
  refine (k3_pay1_idx ..).trans (bnSiluAt3_congr
    (congrArg (V c (Pipeline.arrRef spec3 0)) (funext fun a => Fin.ext ?_))
    (congrArg (V c (Pipeline.arrRef spec3 1)) (funext fun a => Fin.ext ?_))
    (congrArg (V c (Pipeline.arrRef spec3 2)) (funext fun a => Fin.ext ?_))
    (congrArg (V c (Pipeline.arrRef spec3 3)) (funext fun a => Fin.ext ?_))
    (congrArg (V c (Pipeline.arrRef spec3 4)) (funext fun a => Fin.ext ?_))
    (congrArg (V c (Pipeline.arrRef spec3 5)) (funext fun a => Fin.ext ?_))) <;>
    match a with
    | ⟨0, _⟩ => first | exact r0 _ (by assumption) | exact z0 _ (by assumption)
    | ⟨1, _⟩ => exact r1 _ (by assumption)

-- row p of the output is in the block of point p / 5000
theorem covered3_6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 5000 := ⟨⟨_, by show _ < 10; omega⟩, rfl⟩
  obtain ⟨e60, e61, -⟩ := reg3_idx_facts t
  refine ⟨t, flush3_6 t, ?_⟩
  show i ∈ ((View.whole main_v65).slice (win3_6.rect t)).set
  rw [View.set_slice_whole, Rect.mem_set_unit]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

-- block t of the output ends as block t of bnSilu3 of the six arrays, and the blocks cover the output
theorem arr3_6 (c : Dev nD) :
    (dat3 V c).arrAt 6 cfg3.N = bnSilu3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => by
    show (cfg3.win 6).cut (grid3.coords t) ((dat3 V c).after 6 t) = _
    rw [after3_6]
    unfold out3_6
    rw [View.canon_unit_zero reg3_hz]
    simp only [View.ld_unit_zero (S := S5000x128) reg3_hz, View.ld_unit_zero (S := S1x128) reg3_hz]
    obtain ⟨e60, e61, -⟩ := reg3_idx_facts t
    funext j
    refine k3_pay1_at V c t j (((cfg3.win 6).blk t).view.emb j) ?_ ?_
    · show win3_6.index t (0 : Fin 2) * 5000 + 1 * (j 0).val = 5000 * t.val + (j 0).val; omega
    · show win3_6.index t (1 : Fin 2) * 128 + 1 * (j 1).val = (j 1).val; omega) covered3_6

end Cert.KernelIdeal.Hand
-- ==== Proof.KI.Val4.lean ====
import proofs.«419296_j32031866093810_3_alg».proof.Proof.KI.Reg4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz4 : (![0, 0] : Fin 2 → Nat) = fun _ => 0 := funext fun a => by fin_cases a <;> rfl

theorem init4_apply (y : S1x128.Idx) : init4_1 (F := Ideal) y = 0 ∧ init4_2 (F := Ideal) y = 0 := by
  unfold init4_1 init4_2 k4_pay1 k4_pay2
  constructor <;> (rw [View.canon_unit_zero hz4]; exact Ideal.ofBits_zero_f32)

-- A leading unit axis changes no entry, and over the extended reals a reduction along one axis is the plain sum.
theorem sum4_col (x : Vec Ideal S8000x128 .f32) (y : S1x128.Idx) :
    shapeCast S1x128 (multiReduction (F := Ideal) .add [0] S128 x 0x00000000#32 reduces_S8000x128_S128 (.inl rfl) rfl) shapeCasts_S128_S1x128 y
      = ∑ k : Fin 8000, x (ix2 k (y 1)) := by
  refine (shapeCast_addUnit_apply ![128] _ shapeCasts_S128_S1x128 y).trans ?_
  refine (Ideal.multiReduction_add_single x _ reduces_S8000x128_S128 _ _ _).trans ?_
  exact Finset.sum_congr rfl fun k _ => congrArg x (Shape.idx_ext₂ rfl rfl)

theorem out4_apply (x0 : Vec Ideal S8000x128 .f32) (a : Vec Ideal S1x128 .f32) (y : S1x128.Idx) :
    out4_1 x0 a y = a y + ∑ k : Fin 8000, x0 (ix2 k (y 1)) ∧
    out4_2 x0 a y = a y + ∑ k : Fin 8000, x0 (ix2 k (y 1)) * x0 (ix2 k (y 1)) := by
  unfold out4_1 out4_2
  rw [View.canon_unit_zero hz4, View.canon_unit_zero hz4]
  unfold k4_pay4 k4_pay5 k4_pay3
  simp only [View.ld_unit_zero (S := S8000x128) hz4, View.ld_unit_zero (S := S1x128) hz4, shapeCast_self]
  exact ⟨congrArg (a y + ·) (sum4_col x0 y), congrArg (a y + ·) (sum4_col (show FVec Ideal S8000x128 .f32 from mulf x0 x0) y)⟩

abbrev xarr4 (c : Dev nD) : Vec Ideal S800000x128 .f32 := V c (Pipeline.arrRef spec4 0)

abbrev xblk4 (c : Dev nD) (t : Fin cfg4.N) : Vec Ideal S8000x128 .f32 := iblk4 V c 0 t

def rows4 (c : Dev nD) (r : ℕ) (j : Fin 128) : EReal := if h : r < 800000 then xarr4 V c (ix2 ⟨r, h⟩ j) else 0

theorem idx4_in : ∀ t : Fin cfg4.N, win4_0.index t (0 : Fin 2) = t.val ∧ win4_0.index t (1 : Fin 2) = 0 :=
  (by decide +kernel : ∀ t : Fin grid4.N, _)

theorem whole4_mem {G : Pipeline.Grid} (w : Pipeline.Window sig G) (t : Fin G.N)
    (h : ∀ a, w.index t a = 0 ∧ w.xsize (G.coords t) a = w.shape.size a) (i : w.shape.Idx) : i ∈ (w.rect t).set := by
  rw [Rect.mem_set_unit]
  intro a
  show w.index t a * w.size a ≤ (i a : Nat) ∧ (i a : Nat) < w.index t a * w.size a + w.xsize (G.coords t) a
  rw [(h a).1, (h a).2, Nat.zero_mul, Nat.zero_add]
  exact ⟨Nat.zero_le _, (i a).isLt⟩

theorem whole4 : ∀ (t : Fin cfg4.N) (a : Fin 2),
    (win4_1.index t a = 0 ∧ win4_1.xsize (grid4.coords t) a = ![1, 128] a) ∧
    win4_2.index t a = 0 ∧ win4_2.xsize (grid4.coords t) a = ![1, 128] a :=
  (by decide +kernel : ∀ (t : Fin grid4.N) (a : Fin 2), _)

-- The input block at point `t` is rows `8000 t` to `8000 (t + 1)` of the array, so its column sums are sums over those rows.
theorem blk4_sum (g : EReal → EReal) (c : Dev nD) (t : Fin cfg4.N) (j : Fin 128) :
    ∑ k : Fin 8000, g (xblk4 V c t (ix2 k j)) = ∑ k ∈ Finset.range 8000, g (rows4 V c (8000 * t.val + k) j) := by
  have hN : t.val < 100 := lt_of_lt_of_eq t.isLt (show cfg4.N = 100 from N_4)
  obtain ⟨e0, e1⟩ := idx4_in t
  rw [← Fin.sum_univ_eq_sum_range (fun k => g (rows4 V c (8000 * t.val + k) j)) 8000]
  refine Finset.sum_congr rfl fun k _ => congrArg g ?_
  have hk : 8000 * t.val + k.val < 800000 := by have := k.isLt; omega
  unfold rows4 xblk4 iblk4
  rw [dif_pos hk, View.read_apply]
  show xarr4 V c _ = xarr4 V c _
  congr 1
  funext a; apply Fin.ext
  match a with
  | ⟨0, _⟩ => show win4_0.index t (0 : Fin 2) * 8000 + 1 * k.val = 8000 * t.val + k.val; rw [e0]; omega
  | ⟨1, _⟩ => show win4_0.index t (1 : Fin 2) * 128 + 1 * j.val = j.val; rw [e1]; omega

-- By induction on the point: each adds its block's rows to what the points before left, the first to a zero row.
theorem acc4_last (g : EReal → EReal) (c : Dev nD)
    (o : Vec Ideal S8000x128 .f32 → Vec Ideal S1x128 .f32 → Vec Ideal S1x128 .f32) (z : Vec Ideal S1x128 .f32)
    (acc : (n : ℕ) → n < cfg4.N → Vec Ideal S1x128 .f32)
    (ho : ∀ x a y, o x a y = a y + ∑ k : Fin 8000, g (x (ix2 k (y 1)))) (hz : ∀ y, z y = 0)
    (h0 : ∀ h, acc 0 h = o (xblk4 V c ⟨0, h⟩) z)
    (hs : ∀ n h, acc (n + 1) h = o (xblk4 V c ⟨n + 1, h⟩) (acc n (Nat.lt_of_succ_lt h)))
    (t : Fin cfg4.N) (ht : t.val % 100 = 99) :
    acc t.val t.isLt = fun y => ∑ r : Fin 800000, g (xarr4 V c (ix2 r (y 1))) := by
  have key : ∀ (n : ℕ) (h : n < cfg4.N) (y : S1x128.Idx),
      acc n h y = ∑ r ∈ Finset.range (8000 * (n + 1)), g (rows4 V c r (y 1)) := by
    intro n
    induction n with
    | zero =>
      intro h y
      rw [h0, ho, hz, zero_add, blk4_sum V g c ⟨0, h⟩ (y 1)]
      refine Finset.sum_congr rfl fun k _ => ?_
      show g (rows4 V c (8000 * 0 + k) (y 1)) = _
      rw [Nat.mul_zero, Nat.zero_add]
    | succ n ih =>
      intro h y
      rw [hs, ho, ih, blk4_sum V g c ⟨n + 1, h⟩ (y 1),
        show 8000 * (n + 1 + 1) = 8000 * (n + 1) + 8000 from by omega, Finset.sum_range_add]
  have hN : cfg4.N = 100 := N_4
  funext y
  refine (key t.val t.isLt y).trans ?_
  rw [show 8000 * (t.val + 1) = 800000 from by have := t.isLt; omega, Finset.sum_range]
  refine Finset.sum_congr rfl fun r _ => congrArg g ?_
  unfold rows4; exact (dif_pos r.isLt).trans rfl

def colsum4 (X : Vec Ideal S800000x128 .f32) : Vec Ideal S1x128 .f32 := fun y => ∑ r : Fin 800000, X (ix2 r (y 1))

def colsq4 (X : Vec Ideal S800000x128 .f32) : Vec Ideal S1x128 .f32 := fun y => ∑ r : Fin 800000, X (ix2 r (y 1)) * X (ix2 r (y 1))

def final4_pt : Fin cfg4.N := ⟨cfg4.N - 1, by rw [show cfg4.N = 100 from N_4]; decide⟩

theorem arr4_1 (c : Dev nD) : (dat4 (F := Ideal) V c).arrAt 1 cfg4.N = colsum4 (V c (Pipeline.arrRef spec4 0)) :=
  (dat4 V c).arrAt_eq_of_cover 1 (colsum4 (xarr4 V c)) (fun t hf => by
    show (cfg4.win 1).cut (grid4.coords t) ((dat4 V c).after 1 t) = _
    rw [after4_1, acc4_last V id c out4_1 init4_1 (acc4_1 V c) (fun x a y => (out4_apply x a y).1) (fun y => (init4_apply y).1)
      (fun _ => rfl) (fun _ _ => rfl) t ((flush4_1 t).mp hf)]
    have hz' : (fun a => win4_1.index t a * main_v69_0.ty.shape.size a) = fun _ => 0 :=
      funext fun a => by show win4_1.index t a * _ = 0; rw [(whole4 t a).1.1, Nat.zero_mul]
    exact (Memref.read_access_unit_zero (Elt Ideal) main_v69_0 hz' (fun a => by rw [congrFun hz' a]; simp) _).symm) fun i =>
    ⟨final4_pt, (flush4_1 final4_pt).mpr (by decide), by
      show i ∈ ((View.whole main_v69_0).slice (win4_1.rect final4_pt)).set
      rw [View.set_slice_whole]
      exact whole4_mem win4_1 final4_pt (fun a => (whole4 final4_pt a).1) i⟩

theorem arr4_2 (c : Dev nD) : (dat4 (F := Ideal) V c).arrAt 2 cfg4.N = colsq4 (V c (Pipeline.arrRef spec4 0)) :=
  (dat4 V c).arrAt_eq_of_cover 2 (colsq4 (xarr4 V c)) (fun t hf => by
    show (cfg4.win 2).cut (grid4.coords t) ((dat4 V c).after 2 t) = _
    rw [after4_2, acc4_last V (fun v => v * v) c out4_2 init4_2 (acc4_2 V c) (fun x a y => (out4_apply x a y).2) (fun y => (init4_apply y).2)
      (fun _ => rfl) (fun _ _ => rfl) t ((flush4_2 t).mp hf)]
    have hz' : (fun a => win4_2.index t a * main_v69_1.ty.shape.size a) = fun _ => 0 :=
      funext fun a => by show win4_2.index t a * _ = 0; rw [(whole4 t a).2.1, Nat.zero_mul]
    exact (Memref.read_access_unit_zero (Elt Ideal) main_v69_1 hz' (fun a => by rw [congrFun hz' a]; simp) _).symm) fun i =>
    ⟨final4_pt, (flush4_2 final4_pt).mpr (by decide), by
      show i ∈ ((View.whole main_v69_1).slice (win4_2.rect final4_pt)).set
      rw [View.set_slice_whole]
      exact whole4_mem win4_2 final4_pt (fun a => (whole4 final4_pt a).2) i⟩

end Cert.KernelIdeal.Hand

end
-- ==== Proof.KI.Val5.lean ====
import proofs.«419296_j32031866093810_3_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def bnAt5 (x mu var ga be : F .f32) : F .f32 :=
  FloatOps.addf (FloatOps.mulf (FloatOps.mulf (FloatOps.subf x mu) (FloatOps.rsqrt (FloatOps.addf var (Scalar.ofBits .f32 0x3727C5AC#32)))) ga) be

def bnSiluAt5 (x r mu var ga be : F .f32) : F .f32 :=
  FloatOps.addf r (FloatOps.mulf (bnAt5 x mu var ga be) (FloatOps.logistic (bnAt5 x mu var ga be)))

theorem bnSiluAt5_congr {x x' r r' mu mu' var var' ga ga' be be' : F .f32} (h0 : x = x') (h1 : r = r') (h2 : mu = mu')
    (h3 : var = var') (h4 : ga = ga') (h5 : be = be') : bnSiluAt5 x r mu var ga be = bnSiluAt5 x' r' mu' var' ga' be' := by
  subst h0 h1 h2 h3 h4 h5; rfl

-- the body's payload is entrywise in the two blocks, and reads each lane vector's one row at the entry's lane
theorem k5_pay1_idx (x0 x1 : Vec F S8000x128 .f32) (x2 x3 x4 x5 : Vec F S1x128 .f32) (j : S8000x128.Idx) :
    k5_pay1 x0 x2 x3 x4 x5 x1 j
      = bnSiluAt5 (x0 j) (x1 j) (x2 (ix2 0 (j 1))) (x3 (ix2 0 (j 1))) (x4 (ix2 0 (j 1))) (x5 (ix2 0 (j 1))) := by
  obtain ⟨p, l, rfl⟩ : ∃ (p : Fin 8000) (l : Fin 128), j = ix2 p l := ⟨j 0, j 1, eq_ix2 j⟩
  show _ = bnSiluAt5 (x0 (ix2 p l)) (x1 (ix2 p l)) (x2 (ix2 0 l)) (x3 (ix2 0 l)) (x4 (ix2 0 l)) (x5 (ix2 0 l))
  unfold k5_pay1 bnSiluAt5 bnAt5
  simp only [shapeCast_self]
  simp only [addf, mulf, subf, rsqrt, logistic, broadcast, broadcastTo_1b_ab_apply]

def bnSilu5 (x r : S800000x128.Idx → Elt F .f32) (mu var ga be : S1x128.Idx → Elt F .f32) : S800000x128.Idx → Elt F .f32 :=
  fun i => bnSiluAt5 (x i) (r i) (mu (ix2 (0 : Fin 1) (i 1))) (var (ix2 (0 : Fin 1) (i 1))) (ga (ix2 (0 : Fin 1) (i 1))) (be (ix2 (0 : Fin 1) (i 1)))

theorem bnSilu5_apply (x r : S800000x128.Idx → Elt F .f32) (mu var ga be : S1x128.Idx → Elt F .f32) (p : Fin 800000) (l : Fin 128) :
    bnSilu5 x r mu var ga be (ix2 p l)
      = bnSiluAt5 (x (ix2 p l)) (r (ix2 p l)) (mu (ix2 (0 : Fin 1) l)) (var (ix2 (0 : Fin 1) l)) (ga (ix2 (0 : Fin 1) l)) (be (ix2 (0 : Fin 1) l)) := rfl

variable (V : (c : Dev nD) → (b : Ref sig .tc) → Buf (Elt F) ((c : Thread nD τ).loc b))

theorem reg5_idx_facts : ∀ t : Fin cfg5.N, win5_6.index t (0 : Fin 2) = t.val ∧ win5_6.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem reg5_hz : (![0, 0] : Fin 2 → Nat) = fun _ => 0 := funext fun a => by fin_cases a <;> rfl

-- entry j of point t's blocks sits at entry i of the arrays: row 8000 t + j 0, the same lane
theorem k5_pay1_at (c : Dev nD) (t : Fin cfg5.N) (j : S8000x128.Idx) (i : S800000x128.Idx)
    (hi0 : (i 0).val = 8000 * t.val + (j 0).val) (hi1 : (i 1).val = (j 1).val) :
    k5_pay1 (iblk5 V c 0 t) (iblk5 V c 2 t) (iblk5 V c 3 t) (iblk5 V c 4 t) (iblk5 V c 5 t) (iblk5 V c 1 t) j
      = bnSilu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) i := by
  obtain ⟨-, -, _, _, _, _, _, _, _, _, _, _, _, _⟩ := reg5_idx_facts t
  have r0 : ∀ n, n = t.val → n * 8000 + 1 * (j 0).val = (i 0).val := fun n h => by omega
  have r1 : ∀ n, n = 0 → n * 128 + 1 * (j 1).val = (i 1).val := fun n h => by omega
  have z0 : ∀ n, n = 0 → n * 1 + 1 * 0 = 0 := fun n h => by omega
  refine (k5_pay1_idx ..).trans (bnSiluAt5_congr
    (congrArg (V c (Pipeline.arrRef spec5 0)) (funext fun a => Fin.ext ?_))
    (congrArg (V c (Pipeline.arrRef spec5 1)) (funext fun a => Fin.ext ?_))
    (congrArg (V c (Pipeline.arrRef spec5 2)) (funext fun a => Fin.ext ?_))
    (congrArg (V c (Pipeline.arrRef spec5 3)) (funext fun a => Fin.ext ?_))
    (congrArg (V c (Pipeline.arrRef spec5 4)) (funext fun a => Fin.ext ?_))
    (congrArg (V c (Pipeline.arrRef spec5 5)) (funext fun a => Fin.ext ?_))) <;>
    match a with
    | ⟨0, _⟩ => first | exact r0 _ (by assumption) | exact z0 _ (by assumption)
    | ⟨1, _⟩ => exact r1 _ (by assumption)

-- row p of the output is in the block of point p / 8000
theorem covered5_6 (i : S800000x128.Idx) : ∃ t : Fin cfg5.N, (cfg5.win 6).flush t = true ∧ i ∈ ((cfg5.win 6).blk t).view.set := by
  have hi0 : (i 0).val < 800000 := (i 0).isLt
  have hi1 : (i 1).val < 128 := (i 1).isLt
  obtain ⟨t, ht⟩ : ∃ t : Fin cfg5.N, t.val = (i 0).val / 8000 := ⟨⟨_, by show _ < 100; omega⟩, rfl⟩
  obtain ⟨e60, e61, -⟩ := reg5_idx_facts t
  refine ⟨t, flush5_6 t, ?_⟩
  show i ∈ ((View.whole main_v100).slice (win5_6.rect t)).set
  rw [View.set_slice_whole, Rect.mem_set_unit]
  intro a
  match a with
  | ⟨0, _⟩ => show win5_6.index t (0 : Fin 2) * 8000 ≤ (i 0).val ∧ (i 0).val < win5_6.index t (0 : Fin 2) * 8000 + 8000; omega
  | ⟨1, _⟩ => show win5_6.index t (1 : Fin 2) * 128 ≤ (i 1).val ∧ (i 1).val < win5_6.index t (1 : Fin 2) * 128 + 128; omega

-- block t of the output ends as block t of bnSilu5 of the six arrays, and the blocks cover the output
theorem arr5_6 (c : Dev nD) :
    (dat5 V c).arrAt 6 cfg5.N = bnSilu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => by
    show (cfg5.win 6).cut (grid5.coords t) ((dat5 V c).after 6 t) = _
    rw [after5_6]
    unfold out5_6
    rw [View.canon_unit_zero reg5_hz]
    simp only [View.ld_unit_zero (S := S8000x128) reg5_hz, View.ld_unit_zero (S := S1x128) reg5_hz]
    obtain ⟨e60, e61, -⟩ := reg5_idx_facts t
    funext j
    refine k5_pay1_at V c t j (((cfg5.win 6).blk t).view.emb j) ?_ ?_
    · show win5_6.index t (0 : Fin 2) * 8000 + 1 * (j 0).val = 8000 * t.val + (j 0).val; omega
    · show win5_6.index t (1 : Fin 2) * 128 + 1 * (j 1).val = (j 1).val; omega) covered5_6

end Cert.KernelIdeal.Hand
-- ==== Proof.Bridge.KVal.lean ====
import proofs.«419296_j32031866093810_3_alg».proof.Proof.KI.Run
import proofs.«419296_j32031866093810_3_alg».proof.Proof.KI.Chain
import proofs.«419296_j32031866093810_3_alg».proof.Proof.Bridge.KTerms
import proofs.«419296_j32031866093810_3_alg».proof.Proof.KI.Val2
import proofs.«419296_j32031866093810_3_alg».proof.Proof.KI.Val3
import proofs.«419296_j32031866093810_3_alg».proof.Proof.KI.Val4
import proofs.«419296_j32031866093810_3_alg».proof.Proof.KI.Val5

noncomputable section

namespace Cert.Hand.Bridge

open Idealize.ShloMosaic Idealize.ShloMosaic.TcCoe Idealize.SL.Sem
open Cert.KernelIdeal Cert.KernelIdeal.Gen Cert.KernelIdeal.Hand
open Cert.ReferenceIdeal.Hand (Inputs)

variable (m : (ℓ : Loc nD τ sig) → Buf (Elt Ideal) ℓ) (c : Dev nD)

def kin : Inputs Ideal where
  nodes := m ((c.tc : Thread nD τ).loc main_arg0)
  edges := m ((c.tc : Thread nD τ).loc main_arg1)
  src := m ((c.tc : Thread nD τ).loc main_arg2)
  dst := m ((c.tc : Thread nD τ).loc main_arg3)
  wSrcGate := m ((c.tc : Thread nD τ).loc main_arg4)
  bSrcGate := m ((c.tc : Thread nD τ).loc main_arg5)
  wDstGate := m ((c.tc : Thread nD τ).loc main_arg6)
  bDstGate := m ((c.tc : Thread nD τ).loc main_arg7)
  wEdgeGate := m ((c.tc : Thread nD τ).loc main_arg8)
  bEdgeGate := m ((c.tc : Thread nD τ).loc main_arg9)
  wSrcUpd := m ((c.tc : Thread nD τ).loc main_arg10)
  bSrcUpd := m ((c.tc : Thread nD τ).loc main_arg11)
  wDstUpd := m ((c.tc : Thread nD τ).loc main_arg12)
  bDstUpd := m ((c.tc : Thread nD τ).loc main_arg13)
  gammaN := m ((c.tc : Thread nD τ).loc main_arg14)
  betaN := m ((c.tc : Thread nD τ).loc main_arg15)
  gammaE := m ((c.tc : Thread nD τ).loc main_arg16)
  betaE := m ((c.tc : Thread nD τ).loc main_arg17)

theorem congr3 {α β γ δ : Type _} (f : α → β → γ → δ) {x x' : α} {y y' : β} {z z' : γ}
    (hx : x = x') (hy : y = y') (hz : z = z') : f x y z = f x' y' z' := by subst hx hy hz; rfl
theorem congr5 {α β γ δ ε ζ : Type _} (f : α → β → γ → δ → ε → ζ) {x x' : α} {y y' : β} {z z' : γ} {u u' : δ} {v v' : ε}
    (hx : x = x') (hy : y = y') (hz : z = z') (hu : u = u') (hv : v = v') : f x y z u v = f x' y' z' u' v' := by
  subst hx hy hz hu hv; rfl
theorem congr6 {α β γ δ ε ζ η : Type _} (f : α → β → γ → δ → ε → ζ → η) {x x' : α} {y y' : β} {z z' : γ} {u u' : δ} {v v' : ε} {w w' : ζ}
    (hx : x = x') (hy : y = y') (hz : z = z') (hu : u = u') (hv : v = v') (hw : w = w') :
    f x y z u v w = f x' y' z' u' v' w' := by
  subst hx hy hz hu hv hw; rfl

theorem out2_v3_0 : (outs m 2 main_v3_0 c : Vec Ideal S100000x128 .f32) = stack (kin m c) :=
  (outs_2 m main_v3_0 c).trans <| Eq.trans (Pipeline.withArrays_arr _ launch0.win.arr_inj _ _ _ 3) <|
    (arr0_3 _ c).trans <| congr3 projLow (entry0_arg0 m c) (entry0_v0 m c) (entry0_v2 m c)
theorem out2_v3_1 : (outs m 2 main_v3_1 c : Vec Ideal S100000x64 .f32) = edstK (kin m c) :=
  (outs_2 m main_v3_1 c).trans <| Eq.trans (Pipeline.withArrays_arr _ launch0.win.arr_inj _ _ _ 4) <|
    (arr0_4 _ c).trans <| congr3 projMid (entry0_arg0 m c) (entry0_v0 m c) (entry0_v2 m c)
theorem out2_v3_2 : (outs m 2 main_v3_2 c : Vec Ideal S100000x64 .f32) = xsK (kin m c) :=
  (outs_2 m main_v3_2 c).trans <| Eq.trans (Pipeline.withArrays_arr _ launch0.win.arr_inj _ _ _ 5) <|
    (arr0_5 _ c).trans <| congr3 projHigh (entry0_arg0 m c) (entry0_v0 m c) (entry0_v2 m c)

theorem r1_v11 : (V3 m (o2 m) c (Proc.devRef .tc main_v11) : Vec Ideal S1600000x64 .f32) = esg (kin m c) :=
  (entry1_v11 m (o2 m) c).trans <| congrArg₂ gatherLo (out2_v3_0 m c) rfl
theorem r1_v19 : (V3 m (o2 m) c (Proc.devRef .tc main_v19) : Vec Ideal S1600000x64 .f32) = edg (kin m c) :=
  (entry1_v19 m (o2 m) c).trans <| congrArg₂ gatherNarrow (out2_v3_1 m c) rfl
theorem r1_v12 : (V3 m (o2 m) c (Proc.devRef .tc main_v12) : Vec Ideal S1600000x64 .f32) = bhg (kin m c) :=
  (entry1_v12 m (o2 m) c).trans <| congrArg₂ gatherHi (out2_v3_0 m c) rfl

theorem out4_v21_0 : (outs m 4 main_v21_0 c : Vec Ideal S1600000x64 .f32) = mK (kin m c) :=
  (outs_4 m main_v21_0 c).trans <| Eq.trans (Pipeline.withArrays_arr _ launch1.win.arr_inj _ _ _ 6) <|
    (arr1_6 _ c).trans <|
      congr5 edgePre (entry1_arg1 m (o2 m) c) (r1_v11 m c) (r1_v19 m c) (entry1_arg8 m (o2 m) c) (entry1_v20 m (o2 m) c)
theorem out4_v21_1 : (outs m 4 main_v21_1 c : Vec Ideal S1600000x64 .f32) = sigK (kin m c) :=
  (outs_4 m main_v21_1 c).trans <| Eq.trans (Pipeline.withArrays_arr _ launch1.win.arr_inj _ _ _ 7) <|
    (arr1_7 _ c).trans <|
      congr5 edgeGate (entry1_arg1 m (o2 m) c) (r1_v11 m c) (r1_v19 m c) (entry1_arg8 m (o2 m) c) (entry1_v20 m (o2 m) c)
theorem out4_v21_2 : (outs m 4 main_v21_2 c : Vec Ideal S1600000x64 .f32) = sighK (kin m c) :=
  (outs_4 m main_v21_2 c).trans <| Eq.trans (Pipeline.withArrays_arr _ launch1.win.arr_inj _ _ _ 8) <|
    (arr1_8 _ c).trans <|
      congr6 edgeMsg (entry1_arg1 m (o2 m) c) (r1_v11 m c) (r1_v19 m c) (r1_v12 m c) (entry1_arg8 m (o2 m) c) (entry1_v20 m (o2 m) c)

theorem r2_v32 : (V5 m (o4 m) c (Proc.devRef .tc main_v32) : Vec Ideal S50000x128 .f32) = fold2 (xpreK (kin m c)) :=
  (entry2_v32 m (o4 m) c).trans <| congrArg fold2 (nodeUpd_congr (out2_v3_2 m c) rfl (out4_v21_2 m c) (out4_v21_1 m c))

theorem out6_v34_0 : (outs m 6 main_v34_0 c : Vec Ideal S1x128 .f32) = colsum2 (fold2 (xpreK (kin m c))) :=
  (outs_6 m main_v34_0 c).trans <| Eq.trans (Pipeline.withArrays_arr _ launch2.win.arr_inj _ _ _ 1) <|
    (arr2_1 _ c).trans <| congrArg colsum2 (r2_v32 m c)
theorem out6_v34_1 : (outs m 6 main_v34_1 c : Vec Ideal S1x128 .f32) = colsq2 (fold2 (xpreK (kin m c))) :=
  (outs_6 m main_v34_1 c).trans <| Eq.trans (Pipeline.withArrays_arr _ launch2.win.arr_inj _ _ _ 2) <|
    (arr2_2 _ c).trans <| congrArg colsq2 (r2_v32 m c)

theorem result0_val : (V13 m (outs m) c (Proc.devRef .tc main_v66) : Vec Ideal S100000x64 .f32)
    = unfold2 (bnSilu3 (F := Ideal) (fold2 (xpreK (kin m c))) (fold2 (kin m c).nodes)
        (tile2 (meanOf 0x47C35000#32 (colsum2 (fold2 (xpreK (kin m c))))))
        (tile2 (varOf 0x47C35000#32 (colsum2 (fold2 (xpreK (kin m c)))) (colsq2 (fold2 (xpreK (kin m c))))))
        (tile2 (kin m c).gammaN) (tile2 (kin m c).betaN)) :=
  (result0 m (outs m) c).trans <| congrArg unfold2 <| (outs_8 m main_v65 c).trans <|
    Eq.trans (Pipeline.withArrays_arr _ launch3.win.arr_inj _ _ _ 6) <|
      (arr3_6 _ c).trans <| congr6 bnSilu3
        ((entry3_v32 m (o6 m) c).trans <| congrArg fold2 (nodeUpd_congr (out2_v3_2 m c) rfl (out4_v21_2 m c) (out4_v21_1 m c)))
        (entry3_v33 m (o6 m) c)
        ((entry3_v52 m (o6 m) c).trans <| congrArg (fun s => tile2 (meanOf 0x47C35000#32 s)) (out6_v34_0 m c))
        ((entry3_v56 m (o6 m) c).trans <| congrArg₂ (fun s q => tile2 (varOf 0x47C35000#32 s q)) (out6_v34_0 m c) (out6_v34_1 m c))
        (entry3_v60 m (o6 m) c) (entry3_v64 m (o6 m) c)

theorem r4_v67 : (V9 m (o8 m) c (Proc.devRef .tc main_v67) : Vec Ideal S800000x128 .f32) = foldE (mK (kin m c)) :=
  (entry4_v67 m (o8 m) c).trans (congrArg foldE (out4_v21_0 m c))

theorem out10_v69_0 : (outs m 10 main_v69_0 c : Vec Ideal S1x128 .f32) = colsum4 (foldE (mK (kin m c))) :=
  (outs_10 m main_v69_0 c).trans <| Eq.trans (Pipeline.withArrays_arr _ launch4.win.arr_inj _ _ _ 1) <|
    (arr4_1 _ c).trans <| congrArg colsum4 (r4_v67 m c)
theorem out10_v69_1 : (outs m 10 main_v69_1 c : Vec Ideal S1x128 .f32) = colsq4 (foldE (mK (kin m c))) :=
  (outs_10 m main_v69_1 c).trans <| Eq.trans (Pipeline.withArrays_arr _ launch4.win.arr_inj _ _ _ 2) <|
    (arr4_2 _ c).trans <| congrArg colsq4 (r4_v67 m c)

theorem result1_val : (V13 m (outs m) c (Proc.devRef .tc main_v101) : Vec Ideal S1600000x64 .f32)
    = unfoldE (bnSilu5 (F := Ideal) (foldE (mK (kin m c))) (foldE (kin m c).edges)
        (tile2 (meanOf 0x49C35000#32 (colsum4 (foldE (mK (kin m c))))))
        (tile2 (varOf 0x49C35000#32 (colsum4 (foldE (mK (kin m c)))) (colsq4 (foldE (mK (kin m c))))))
        (tile2 (kin m c).gammaE) (tile2 (kin m c).betaE)) :=
  (result1 m (outs m) c).trans <| congrArg unfoldE <| (outs_12 m main_v100 c).trans <|
    Eq.trans (Pipeline.withArrays_arr _ launch5.win.arr_inj _ _ _ 6) <|
      (arr5_6 _ c).trans <| congr6 bnSilu5
        ((entry5_v67 m (o10 m) c).trans <| congrArg foldE (out4_v21_0 m c))
        (entry5_v68 m (o10 m) c)
        ((entry5_v87 m (o10 m) c).trans <| congrArg (fun s => tile2 (meanOf 0x49C35000#32 s)) (out10_v69_0 m c))
        ((entry5_v91 m (o10 m) c).trans <| congrArg₂ (fun s q => tile2 (varOf 0x49C35000#32 s q)) (out10_v69_0 m c) (out10_v69_1 m c))
        (entry5_v95 m (o10 m) c) (entry5_v99 m (o10 m) c)

end Cert.Hand.Bridge

end
-- ==== Proof.Math.Laws.lean ====
import Mathlib.Data.EReal.Inv
import Mathlib.Algebra.BigOperators.Fin
import Mathlib.Algebra.BigOperators.Group.Finset.Basic
import Mathlib.Logic.Equiv.Fin.Basic
import Mathlib.Tactic.FieldSimp
import Mathlib.Tactic.Ring
import Mathlib.Tactic.NormNum
import Mathlib.Analysis.SpecialFunctions.Exp
import Idealize.ShloMosaic.PureOps.Ideal.Laws

noncomputable section

namespace Cert.Hand.Math

open Idealize.ShloMosaic
open scoped BigOperators

def IsReal (x : EReal) : Prop := ∃ r : ℝ, x = (r : EReal)

def IsNonnegReal (x : EReal) : Prop := ∃ r : ℝ, 0 ≤ r ∧ x = (r : EReal)

def IsPosReal (x : EReal) : Prop := ∃ r : ℝ, 0 < r ∧ x = (r : EReal)

theorem IsReal.add {x y : EReal} : IsReal x → IsReal y → IsReal (x + y) := by
  rintro ⟨a, rfl⟩ ⟨b, rfl⟩; exact ⟨a + b, rfl⟩

theorem IsReal.mul {x y : EReal} : IsReal x → IsReal y → IsReal (x * y) := by
  rintro ⟨a, rfl⟩ ⟨b, rfl⟩; exact ⟨a * b, rfl⟩

theorem coe_sum {ι : Type*} (s : Finset ι) (f : ι → ℝ) :
    ((∑ i ∈ s, f i : ℝ) : EReal) = ∑ i ∈ s, (f i : EReal) :=
  map_sum (⟨⟨Real.toEReal, rfl⟩, EReal.coe_add⟩ : ℝ →+ EReal) f s

theorem isReal_sum {ι : Type*} (s : Finset ι) (f : ι → EReal) (h : ∀ i ∈ s, IsReal (f i)) :
    IsReal (∑ i ∈ s, f i) :=
  Finset.sum_induction f IsReal (fun _ _ => .add) ⟨0, rfl⟩ h

theorem div_coe_coe (x : ℝ) {N : ℝ} (hN : N ≠ 0) :
    Ideal.div (x : EReal) (N : EReal) = ((x / N : ℝ) : EReal) := by
  rw [Ideal.div_coe hN, ← EReal.coe_mul, ← div_eq_mul_one_div]

theorem IsReal.div {x y : EReal} : IsReal x → IsReal y → y ≠ 0 → IsReal (Ideal.div x y) := by
  rintro ⟨a, rfl⟩ ⟨b, rfl⟩ h0; exact ⟨a / b, div_coe_coe a (EReal.coe_ne_zero.mp h0)⟩

-- Σ(x−μ)²/N = Σx²/N − μ² for the mean μ = Σx/N of N real terms.
theorem variance_law {ι : Type*} [Fintype ι] (a : ι → EReal) (ha : ∀ n, IsReal (a n)) (N : ℝ)
    (hN : (Fintype.card ι : ℝ) = N) (hN0 : N ≠ 0) :
    Ideal.div (∑ n, (a n - Ideal.div (∑ m, a m) (N : EReal)) * (a n - Ideal.div (∑ m, a m) (N : EReal))) (N : EReal)
      = Ideal.div (∑ n, a n * a n) (N : EReal)
          - Ideal.div (∑ m, a m) (N : EReal) * Ideal.div (∑ m, a m) (N : EReal) := by
  obtain ⟨r, rfl⟩ : ∃ r : ι → ℝ, a = fun n => (r n : EReal) :=
    ⟨fun n => (ha n).choose, funext fun n => (ha n).choose_spec⟩
  simp only [← coe_sum, div_coe_coe _ hN0, ← EReal.coe_sub, ← EReal.coe_mul]
  congr 1
  simp only [sub_mul, mul_sub, Finset.sum_sub_distrib, ← Finset.mul_sum, ← Finset.sum_mul, Finset.sum_const,
    Finset.card_univ, nsmul_eq_mul, hN]
  field_simp
  ring

-- Every index below 2M is 2r or 2r+1 for exactly one r below M.
theorem sum_fin_eq_sum_pairs {α : Type*} [AddCommMonoid α] {n : ℕ} (M : ℕ) (hn : n = 2 * M) (g : Fin n → α) :
    ∑ i, g i = ∑ r : Fin M, (g ⟨2 * r.val, by omega⟩ + g ⟨2 * r.val + 1, by omega⟩) := by
  obtain rfl : n = M * 2 := by omega
  rw [← finProdFinEquiv.sum_comp, Fintype.sum_prod_type]
  refine Finset.sum_congr rfl fun r _ => ?_
  rw [Fin.sum_univ_two]
  congr 2 <;> exact Fin.ext (by simp [Nat.add_comm])

theorem IsPosReal.isReal {x : EReal} : IsPosReal x → IsReal x
  | ⟨r, _, h⟩ => ⟨r, h⟩

theorem IsNonnegReal.isReal {x : EReal} : IsNonnegReal x → IsReal x
  | ⟨r, _, h⟩ => ⟨r, h⟩

theorem IsPosReal.isNonnegReal {x : EReal} : IsPosReal x → IsNonnegReal x
  | ⟨r, hr, h⟩ => ⟨r, hr.le, h⟩

theorem IsPosReal.ne_zero {x : EReal} : IsPosReal x → x ≠ 0 := by
  rintro ⟨_, hr, rfl⟩; exact EReal.coe_ne_zero.mpr hr.ne'

theorem IsNonnegReal.add {x y : EReal} : IsNonnegReal x → IsNonnegReal y → IsNonnegReal (x + y) := by
  rintro ⟨a, ha, rfl⟩ ⟨b, hb, rfl⟩; exact ⟨a + b, add_nonneg ha hb, rfl⟩

theorem IsNonnegReal.add_pos {x y : EReal} : IsNonnegReal x → IsPosReal y → IsPosReal (x + y) := by
  rintro ⟨a, ha, rfl⟩ ⟨b, hb, rfl⟩; exact ⟨a + b, add_pos_of_nonneg_of_pos ha hb, rfl⟩

theorem IsPosReal.mul {x y : EReal} : IsPosReal x → IsPosReal y → IsPosReal (x * y) := by
  rintro ⟨a, ha, rfl⟩ ⟨b, hb, rfl⟩; exact ⟨a * b, mul_pos ha hb, rfl⟩

theorem isNonnegReal_sum {ι : Type*} (s : Finset ι) (f : ι → EReal) (h : ∀ i ∈ s, IsNonnegReal (f i)) :
    IsNonnegReal (∑ i ∈ s, f i) :=
  Finset.sum_induction f IsNonnegReal (fun _ _ => .add) ⟨0, le_rfl, rfl⟩ h

theorem logistic_isPosReal {x : EReal} : IsReal x → IsPosReal (Ideal.logistic x) := by
  rintro ⟨r, rfl⟩; exact ⟨(1 + Real.exp (-r))⁻¹, inv_pos.mpr (add_pos one_pos (Real.exp_pos _)), Ideal.logistic_coe r⟩

theorem ofBits_100000 : Ideal.ofBits .f32 0x47C35000#32 = ((100000 : ℝ) : EReal) := by
  simp [Ideal.ofBits, Ideal.ieee, -EReal.coe_mul]; norm_num

theorem ofBits_1600000 : Ideal.ofBits .f32 0x49C35000#32 = ((1600000 : ℝ) : EReal) := by
  simp [Ideal.ofBits, Ideal.ieee, -EReal.coe_mul]; norm_num

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_eps_isPosReal : IsPosReal (Ideal.ofBits .f32 0x358637BD#32) :=
  ⟨8796093 / 2 ^ 43, by norm_num, by simp [Ideal.ofBits, Ideal.ieee, -EReal.coe_mul]; norm_num⟩

end Cert.Hand.Math

end
-- ==== Proof.Math.BN.lean ====
import proofs.«419296_j32031866093810_3_alg».proof.Proof.Math.Laws

noncomputable section

namespace Cert.Hand.Math

open Idealize.ShloMosaic
open scoped BigOperators

-- Columns f and 64+f of the folded sums hold the even and the odd rows of feature f.
theorem folded_column_sum {α : Type*} [AddCommMonoid α] {M n : ℕ} (hn : n = 2 * M) (a : Fin n → Fin 64 → α)
    (col : Fin 128 → α)
    (hcol : ∀ j : Fin 128, col j = ∑ r : Fin M, a ⟨2 * r.val + j.val / 64, by omega⟩ ⟨j.val % 64, by omega⟩)
    (f : Fin 64) (j0 j1 : Fin 128) (h0 : j0.val = f.val) (h1 : j1.val = 64 + f.val) :
    col j0 + col j1 = ∑ i, a i f := by
  rw [hcol j0, hcol j1, ← Finset.sum_add_distrib, sum_fin_eq_sum_pairs M hn (fun i => a i f)]
  refine Finset.sum_congr rfl fun r _ => ?_
  congr 1 <;> congr 2 <;> first | omega | exact Fin.ext (by omega)

theorem bn_mean_eq {M n : ℕ} (hn : n = 2 * M) (a : Fin n → Fin 64 → EReal) (D : EReal) (col : Fin 128 → EReal)
    (hcol : ∀ j : Fin 128, col j = ∑ r : Fin M, a ⟨2 * r.val + j.val / 64, by omega⟩ ⟨j.val % 64, by omega⟩)
    (f : Fin 64) (j0 j1 : Fin 128) (h0 : j0.val = f.val) (h1 : j1.val = 64 + f.val) :
    Ideal.div (col j0 + col j1) D = Ideal.div (∑ i, a i f) D := by
  rw [folded_column_sum hn a col hcol f j0 j1 h0 h1]

theorem bn_var_eq {M n : ℕ} (hn : n = 2 * M) (a : Fin n → Fin 64 → EReal) (ha : ∀ i g, IsReal (a i g))
    (N : ℝ) (hN : (n : ℝ) = N) (hN0 : N ≠ 0) (col colsq : Fin 128 → EReal)
    (hcol : ∀ j : Fin 128, col j = ∑ r : Fin M, a ⟨2 * r.val + j.val / 64, by omega⟩ ⟨j.val % 64, by omega⟩)
    (hcolsq : ∀ j : Fin 128, colsq j = ∑ r : Fin M,
      a ⟨2 * r.val + j.val / 64, by omega⟩ ⟨j.val % 64, by omega⟩
        * a ⟨2 * r.val + j.val / 64, by omega⟩ ⟨j.val % 64, by omega⟩)
    (f : Fin 64) (j0 j1 : Fin 128) (h0 : j0.val = f.val) (h1 : j1.val = 64 + f.val) :
    Ideal.div (colsq j0 + colsq j1) (N : EReal)
        - Ideal.div (col j0 + col j1) (N : EReal) * Ideal.div (col j0 + col j1) (N : EReal)
      = Ideal.div (∑ i, (a i f - Ideal.div (∑ m, a m f) (N : EReal)) * (a i f - Ideal.div (∑ m, a m f) (N : EReal)))
          ((N : EReal) - 0) := by
  rw [folded_column_sum hn a col hcol f j0 j1 h0 h1,
    folded_column_sum hn (fun i g => a i g * a i g) colsq hcolsq f j0 j1 h0 h1, sub_zero]
  exact (variance_law (fun i => a i f) (fun i => ha i f) N (by rw [Fintype.card_fin]; exact hN) hN0).symm

theorem logistic_expanded (one x : EReal) (h1 : one = 1) :
    Ideal.div one (one + Ideal.exp (-x)) = Ideal.logistic x := by
  subst h1; rfl

end Cert.Hand.Math

end
-- ==== Proof.Bridge.Edge.lean ====
import proofs.«419296_j32031866093810_3_alg».proof.Proof.Bridge.KTerms
import proofs.«419296_j32031866093810_3_alg».proof.Proof.Math.BN
import proofs.«419296_j32031866093810_3_alg».proof.Proof.Math.Laws
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

noncomputable section

namespace Cert.Hand.Bridge

open Idealize.ShloMosaic Idealize.ShloMosaic.TcCoe Idealize.ShloMosaic.ValueIdx
open Cert.KernelIdeal Cert.KernelIdeal.Hand
open scoped BigOperators

theorem rowsE_apply (v : FVec Ideal Cert.ReferenceIdeal.S64 .f32) (r : Fin 1600000) (q : Fin 64) :
    Cert.ReferenceIdeal.Hand.rowsE v (ix2 r q) = v (ix1 q) := by
  unfold Cert.ReferenceIdeal.Hand.rowsE
  refine (broadcastInDim_apply _ _ _ (ix2 r q) (ix2 (0 : Fin 1) q) fun ax => ?_).trans
    (broadcastInDim_apply _ _ _ (ix2 (0 : Fin 1) q) (ix1 q) fun ax => ?_)
  · match ax with
    | ⟨0, _⟩ => rfl
    | ⟨1, _⟩ => rfl
  · match ax with
    | ⟨0, _⟩ => rfl

theorem asRow_apply (b : Vec Ideal S64 .f32) (q : Fin 64) : asRow b (ix2 (0 : Fin 1) q) = b (ix1 q) :=
  shapeCast_a_1a_apply b _ 0 q

theorem linE_apply (e : FVec Ideal Cert.ReferenceIdeal.S1600000x64 .f32) (w : FVec Ideal Cert.ReferenceIdeal.S64x64 .f32)
    (b : FVec Ideal Cert.ReferenceIdeal.S64 .f32) (r : Fin 1600000) (q : Fin 64) :
    Cert.ReferenceIdeal.Hand.linE e w b (ix2 r q) = (∑ k : Fin 64, e (ix2 r k) * w (ix2 k q)) + b (ix1 q) := by
  unfold Cert.ReferenceIdeal.Hand.linE
  rw [addf_apply, rowsE_apply]
  exact congrArg (· + _) (StackMember.dotGeneral_plain_apply (m := 1600000) (k := 64) (n := 64) none e w r q)

theorem gate_apply (z : FVec Ideal Cert.ReferenceIdeal.S1600000x64 .f32) (i : Cert.ReferenceIdeal.S1600000x64.Idx) :
    Cert.ReferenceIdeal.Hand.gate z i = Ideal.logistic (z i) :=
  Cert.Hand.Math.logistic_expanded _ (z i) Cert.Hand.Math.ofBits_one

end Cert.Hand.Bridge

end
-- ==== Proof.Bridge.Node.lean ====
import proofs.«419296_j32031866093810_3_alg».proof.Proof.Bridge.KTerms
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

noncomputable section

namespace Cert.Hand.Bridge

open Idealize.ShloMosaic Idealize.ShloMosaic.TcCoe Idealize.ShloMosaic.ValueIdx
open Cert.KernelIdeal Cert.KernelIdeal.Hand
open Cert.ReferenceIdeal.Hand (Inputs)
open scoped BigOperators

-- Column 64 p + j of four 64-column blocks side by side is column j of block p.
theorem catW_piece (w0 w1 w2 w3 : Vec Ideal S64x64 .f32) (p : Fin 4) (k j : Fin 64) (q : Fin 256)
    (hq : 64 * p.val + j.val = q.val) :
    catW w0 w1 w2 w3 (ix2 k q) = ![w0, w1, w2, w3] p (ix2 k j) := by
  unfold catW
  exact concatenate_apply_piece (t := S64x256) (1 : Fin 2) [⟨S64x64, w0⟩, ⟨S64x64, w1⟩, ⟨S64x64, w2⟩, ⟨S64x64, w3⟩] _ _
    p.val p.isLt S64x64 _ (by clear hq; fin_cases p <;> rfl) rfl (64 * p.val) (by clear hq; fin_cases p <;> rfl) (ix2 k j)
    (fun b hb => by
      match b with
      | ⟨0, _⟩ => rfl
      | ⟨1, _⟩ => exact absurd rfl hb) hq

theorem catB_piece (b0 b1 b2 b3 : Vec Ideal S64 .f32) (p : Fin 4) (u : Fin 1) (j : Fin 64) (q : Fin 256)
    (hq : 64 * p.val + j.val = q.val) :
    catB b0 b1 b2 b3 (ix2 u q) = ![b0, b1, b2, b3] p (ix1 j) := by
  unfold catB
  exact (shapeCast_a_1a_apply (a := 256) _ _ u q).trans <|
    concatenate_apply_piece (t := S256) (0 : Fin 1) [⟨S64, b0⟩, ⟨S64, b1⟩, ⟨S64, b2⟩, ⟨S64, b3⟩] _ _
      p.val p.isLt S64 _ (by clear hq; fin_cases p <;> rfl) rfl (64 * p.val) (by clear hq; fin_cases p <;> rfl) (ix1 j)
      (fun b hb => by
        match b with
        | ⟨0, _⟩ => exact absurd rfl hb) hq

theorem node_linN_apply (x : FVec Ideal S100000x64 .f32) (w : FVec Ideal S64x64 .f32) (b : FVec Ideal S64 .f32)
    (n : Fin 100000) (j : Fin 64) :
    Cert.ReferenceIdeal.Hand.linN x w b (ix2 n j) = (∑ k : Fin 64, x (ix2 n k) * w (ix2 k j)) + b (ix1 j) := by
  unfold Cert.ReferenceIdeal.Hand.linN Cert.ReferenceIdeal.Hand.rowsN
  rw [addf_apply,
    broadcastInDim_apply _ _ _ (ix2 n j) (ix2 (0 : Fin 1) j) (fun a => by
        match a with
        | ⟨0, _⟩ => rfl
        | ⟨1, _⟩ => rfl),
    broadcastInDim_apply _ _ _ (ix2 (0 : Fin 1) j) (ix1 j) (fun a => by
        match a with
        | ⟨0, _⟩ => rfl)]
  exact congrArg (· + _) (StackMember.dotGeneral_plain_apply (m := 100000) (k := 64) (n := 64) none x w n j)

-- Columns 64 p .. 64 p + 63 of the fused projection are the p-th linear layer.
theorem proj_piece (X : FVec Ideal S100000x64 .f32) (w0 w1 w2 w3 : Vec Ideal S64x64 .f32) (b0 b1 b2 b3 : Vec Ideal S64 .f32)
    (p : Fin 4) (n : Fin 100000) (j : Fin 64) (q : Fin 256) (hq : 64 * p.val + j.val = q.val) :
    nodeProj X (catW w0 w1 w2 w3) (catB b0 b1 b2 b3) n q
      = Cert.ReferenceIdeal.Hand.linN X (![w0, w1, w2, w3] p) (![b0, b1, b2, b3] p) (ix2 n j) := by
  rw [node_linN_apply]
  unfold nodeProj
  rw [catB_piece _ _ _ _ p _ j q hq]
  exact congrArg (· + _) (Finset.sum_congr rfl fun k _ => by rw [catW_piece _ _ _ _ p k j q hq])

variable (a : Inputs Ideal)

theorem stack_lo (n : Fin 100000) (j : Fin 64) :
    stack a (ix2 n ⟨j.val, by omega⟩) = Cert.ReferenceIdeal.Hand.eSrc a (ix2 n j) :=
  proj_piece a.nodes _ _ _ _ _ _ _ _ 0 n j _ (Nat.zero_add _)

theorem stack_hi (n : Fin 100000) (j : Fin 64) :
    stack a (ix2 n ⟨64 + j.val, by omega⟩) = Cert.ReferenceIdeal.Hand.bh a (ix2 n j) :=
  proj_piece a.nodes _ _ _ _ _ _ _ _ 1 n j _ rfl

theorem edstK_eq : edstK a = Cert.ReferenceIdeal.Hand.eDst a := by
  exact funext_ix2 fun n j => proj_piece a.nodes _ _ _ _ _ _ _ _ 2 n j _ rfl

theorem xsK_eq : xsK a = Cert.ReferenceIdeal.Hand.linN a.nodes a.wSrcUpd a.bSrcUpd := by
  exact funext_ix2 fun n j => proj_piece a.nodes _ _ _ _ _ _ _ _ 3 n j _ rfl

end Cert.Hand.Bridge

end
-- ==== Proof.Bridge.Gather.lean ====
import proofs.«419296_j32031866093810_3_alg».proof.Proof.Bridge.KTerms
import Idealize.ShloMosaic.Lib.ValueIdx
import Idealize.ShloMosaic.PureOps.Ideal

noncomputable section

namespace Cert.Hand.Bridge

open Idealize.ShloMosaic Idealize.ShloMosaic.ValueIdx
open Cert.KernelIdeal Cert.KernelIdeal.Hand
open Cert.ReferenceIdeal.Hand (Inputs)

section Rows
variable {α : Type}

abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def rowOf {N w : Nat} (hN : 0 < N) (b : BitVec w) : Fin N := ⟨min b.toInt.toNat (N - 1), by omega⟩

theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowOf hN (idx (ix2 e ⟨0, Nat.one_pos⟩))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = _
    rw [GatherDims.batchCoord_eq_zero _ _ _ List.not_mem_nil]
    have hst : (rowDims N E C wf).start (ix2 e j) idx 1 = 0 := by
      unfold GatherDims.start
      rw [dif_neg (show (1 : Fin 2) ∉ ([0] : List (Fin 2)) by decide)]
    rw [hst]
    unfold GatherDims.offCoord
    rw [dif_pos ((GatherDims.mem_sKept _ _).mpr ⟨show (1 : Fin 2) ∉ ([0] : List (Fin 2)) by decide, List.not_mem_nil⟩)]
    simp only [Nat.zero_add]
    rfl

end Rows

section Programs
variable {F : FTy → Type} [FloatOps F]

def rowAt (i : IVec S1600000 32) (e : Fin 1600000) : Fin 100000 :=
  rowOf (by decide) (colIdx (wrapIdx i) (ix2 e ⟨0, Nat.one_pos⟩))

theorem gatherWide_apply (x : Vec F S100000x128 .f32) (i : IVec S1600000 32) (e : Fin 1600000) (j : Fin 128) :
    gatherWide x i (ix2 e j) = x (ix2 (rowAt i e) j) :=
  gather_rows_apply (N := 100000) (E := 1600000) (C := 128) (by decide) _ x (colIdx (wrapIdx i)) e j

theorem gatherNarrow_apply (y : Vec F S100000x64 .f32) (i : IVec S1600000 32) (e : Fin 1600000) (j : Fin 64) :
    gatherNarrow y i (ix2 e j) = y (ix2 (rowAt i e) j) :=
  gather_rows_apply (N := 100000) (E := 1600000) (C := 64) (by decide) _ y (colIdx (wrapIdx i)) e j

theorem gatherLo_apply (x : Vec F S100000x128 .f32) (i : IVec S1600000 32) (e : Fin 1600000) (j : Fin 64) :
    gatherLo x i (ix2 e j) = x (ix2 (rowAt i e) ⟨j.val, by omega⟩) := by
  refine Eq.trans ?_ (gatherWide_apply x i e ⟨j.val, by omega⟩)
  unfold gatherLo extractStridedSlice
  congr 1
  funext a
  refine Fin.ext ?_
  match a with
  | ⟨0, _⟩ => exact Nat.zero_add _
  | ⟨1, _⟩ => exact Nat.zero_add _

theorem gatherHi_apply (x : Vec F S100000x128 .f32) (i : IVec S1600000 32) (e : Fin 1600000) (j : Fin 64) :
    gatherHi x i (ix2 e j) = x (ix2 (rowAt i e) ⟨64 + j.val, by omega⟩) := by
  refine Eq.trans ?_ (gatherWide_apply x i e ⟨64 + j.val, by omega⟩)
  unfold gatherHi extractStridedSlice
  congr 1
  funext a
  refine Fin.ext ?_
  match a with
  | ⟨0, _⟩ => exact Nat.zero_add _
  | ⟨1, _⟩ => rfl

theorem gatherLo_eq_takeRows (x : Vec F S100000x128 .f32) (y : Vec F S100000x64 .f32) (i : IVec S1600000 32)
    (h : ∀ (n : Fin 100000) (j : Fin 64), x (ix2 n ⟨j.val, by omega⟩) = y (ix2 n j)) :
    gatherLo x i = Cert.ReferenceIdeal.Hand.takeRows y i := by
  refine funext_ix2 fun e j => ?_
  exact (gatherLo_apply x i e j).trans ((h _ j).trans (gatherNarrow_apply y i e j).symm)

theorem gatherHi_eq_takeRows (x : Vec F S100000x128 .f32) (y : Vec F S100000x64 .f32) (i : IVec S1600000 32)
    (h : ∀ (n : Fin 100000) (j : Fin 64), x (ix2 n ⟨64 + j.val, by omega⟩) = y (ix2 n j)) :
    gatherHi x i = Cert.ReferenceIdeal.Hand.takeRows y i := by
  refine funext_ix2 fun e j => ?_
  exact (gatherHi_apply x i e j).trans ((h _ j).trans (gatherNarrow_apply y i e j).symm)

end Programs

end Cert.Hand.Bridge

end
-- ==== Proof.Bridge.Pre.lean ====
import proofs.«419296_j32031866093810_3_alg».proof.Proof.Bridge.KTerms
import proofs.«419296_j32031866093810_3_alg».proof.Proof.Bridge.Edge
import proofs.«419296_j32031866093810_3_alg».proof.Proof.Bridge.Node
import proofs.«419296_j32031866093810_3_alg».proof.Proof.Bridge.Gather

noncomputable section

namespace Cert.Hand.Bridge

open Idealize.ShloMosaic Idealize.ShloMosaic.ValueIdx
open Cert.KernelIdeal Cert.KernelIdeal.Hand
open Cert.ReferenceIdeal.Hand

variable (a : Inputs Ideal)

theorem esg_eq : esg a = takeRows (eSrc a) a.src :=
  gatherLo_eq_takeRows (stack a) (eSrc a) a.src (stack_lo a)

theorem bhg_eq : bhg a = takeRows (bh a) a.src :=
  gatherHi_eq_takeRows (stack a) (bh a) a.src (stack_hi a)

theorem edg_eq : edg a = takeRows (eDst a) a.dst :=
  congrArg (gatherNarrow · a.dst) (edstK_eq a)

theorem logits_eq : mK a = gateLogits a := by
  refine funext_ix2 fun r q => ?_
  unfold mK gateLogits gathered
  rw [esg_eq, edg_eq, edgePre_apply, asRow_apply, addf_apply, addf_apply, linE_apply, add_assoc, add_comm]

theorem sig_eq : sigK a = sigma a := by
  refine funext_ix2 fun r q => ?_
  unfold sigK sigma
  rw [edgeGate_apply, gate_apply, ← logits_eq a]
  rfl

theorem sigh_eq : sighK a = mulf (takeRows (bh a) a.src) (sigma a) := by
  refine funext_ix2 fun r q => ?_
  unfold sighK
  rw [edgeMsg_apply, mulf_apply, ← bhg_eq a, ← sig_eq a]
  rfl

theorem xpre_eq : xpreK a = xPre a := by
  unfold xpreK
  rw [xsK_eq, sigh_eq, sig_eq]
  rfl

end Cert.Hand.Bridge

end
-- ==== Proof.Ref.ValBN.lean ====
import proofs.«419296_j32031866093810_3_alg».proof.Proof.Ref.Stages
import proofs.«419296_j32031866093810_3_alg».proof.Proof.Math.Laws
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx Cert.Hand.Math
open scoped BigOperators

theorem fillC_apply (b : BitVec 32) (j : S64.Idx) : fillC (F := Ideal) b j = Ideal.ofBits .f32 b := rfl

theorem fillN_apply (b : BitVec 32) (j : S100000x64.Idx) : fillN (F := Ideal) b j = Ideal.ofBits .f32 b := rfl

theorem fillE_apply (b : BitVec 32) (j : S1600000x64.Idx) : fillE (F := Ideal) b j = Ideal.ofBits .f32 b := rfl

abbrev Rows (m : ℕ) : Shape := ⟨2, ![m, 64]⟩

variable {m : ℕ}

-- A feature vector spread down `m` rows reads its own entry in every row.
theorem rows_apply (w : S1x64.BroadcastsInDim (Rows m) ![0, 1]) (v : FVec Ideal S64 .f32) (n : Fin m) (f : Fin 64) :
    broadcastInDim (Rows m) ![0, 1] w (broadcastInDim S1x64 ![1] bcast_S64_S1x64_1 v) (ix2 n f) = v (ix1 f) := by
  rw [broadcastInDim_apply (k := (ix2 0 f : S1x64.Idx)) (hk := fun a => by fin_cases a <;> rfl),
    broadcastInDim_apply (k := (ix1 f : S64.Idx)) (hk := fun a => by fin_cases a <;> rfl)]

theorem rowsN_apply (v : FVec Ideal S64 .f32) (n : Fin 100000) (f : Fin 64) : rowsN v (ix2 n f) = v (ix1 f) :=
  rows_apply _ v n f

theorem rowsE_apply (v : FVec Ideal S64 .f32) (n : Fin 1600000) (f : Fin 64) : rowsE v (ix2 n f) = v (ix1 f) :=
  rows_apply _ v n f

theorem hostRsqrt_apply {s : Shape} (x : FVec Ideal s .f32) (j : s.Idx) : Host.rsqrt x j = Ideal.rsqrt (x j) := rfl
theorem hostExp_apply {s : Shape} (x : FVec Ideal s .f32) (j : s.Idx) : Host.exp x j = Ideal.exp (x j) := rfl
theorem hostNegf_apply {s : Shape} (x : FVec Ideal s .f32) (j : s.Idx) : Host.negf x j = -(x j) := rfl

theorem dofOf_apply (count : BitVec 32) (j : S_.Idx) : dofOf (F := Ideal) count j = Ideal.ofBits .f32 count - 0 := by
  unfold dofOf
  rw [subf_apply, constant_apply, sitofp_apply]
  show Ideal.ofBits .f32 count - (((constantI S_ 32 0#32 j).toInt : ℝ) : EReal) = _
  simp [constantI]

-- The variance's test that its divisor is positive holds at a positive count.
theorem dof_gt (c : BitVec 32) {r : ℝ} (hc : Ideal.ofBits .f32 c = (r : EReal)) (hr : 0 < r) :
    cmpf (F := Ideal) .ogt (dofOf c) (constant S_ .f32 0x00000000#32) ix0 = 1#1 := by
  rw [cmpf_apply, dofOf_apply, constant_apply, hc, ofBits_zero, Ideal.cmpf_def]; unfold Ideal.cmp; simp [hr]

-- The sum down the rows, column by column.
theorem colSum (hR : (Rows m).ReducesTo [0] S64) (x : FVec Ideal (Rows m) .f32) (f : Fin 64) :
    Host.reduceAdd x (constant S_ .f32 0x00000000#32) hR h_S_ (ix1 f) = ∑ i : Fin m, x (ix2 i f) := by
  rw [hostReduceAdd_apply, Ideal.hostReduceAdd_single hR ⟨hR.1, Nat.one_pos, hR.2⟩, constant_apply, ofBits_zero, zero_add]
  exact Finset.sum_congr rfl fun k _ => congrArg x (funext fun c => by fin_cases c <;> exact Fin.ext rfl)

theorem meanN_apply (h : FVec Ideal S100000x64 .f32) (f : Fin 64) :
    meanN h (ix1 f) = Ideal.div (∑ i : Fin 100000, h (ix2 i f)) ((100000 : ℝ) : EReal) := by
  unfold meanN
  rw [hostDivf_apply, colSum, fillC_apply, ofBits_100000]

theorem centredN_apply (h : FVec Ideal S100000x64 .f32) (n : Fin 100000) (f : Fin 64) :
    centredN h (ix2 n f) = h (ix2 n f) - meanN h (ix1 f) := by
  unfold centredN meanN
  rw [subf_apply, broadcastInDim_apply (k := (ix2 0 f : S1x64.Idx)) (hk := fun a => by fin_cases a <;> rfl),
    hostDivf_apply, hostDivf_apply, broadcastInDim_apply (k := (ix1 f : S64.Idx)) (hk := fun a => by fin_cases a <;> rfl),
    broadcastInDim_scalar_apply]
  rfl

theorem varN_apply (h : FVec Ideal S100000x64 .f32) (f : Fin 64) :
    varN h (ix1 f)
      = Ideal.div (∑ i : Fin 100000, (h (ix2 i f) - meanN h (ix1 f)) * (h (ix2 i f) - meanN h (ix1 f)))
          (((100000 : ℝ) : EReal) - 0) := by
  unfold varN
  rw [select_apply, broadcastInDim_scalar_apply, dof_gt _ ofBits_100000 (by norm_num), select_one, hostDivf_apply, colSum,
    broadcastInDim_scalar_apply, dofOf_apply, ofBits_100000]
  simp only [mulf_apply, centredN_apply]

theorem outN_apply (res h : FVec Ideal S100000x64 .f32) (γ β : FVec Ideal S64 .f32) (n : Fin 100000) (f : Fin 64) :
    addf res (siluN (normN h (meanN h) (varN h) γ β)) (ix2 n f)
      = res (ix2 n f)
        + ((h (ix2 n f) - meanN h (ix1 f)) * Ideal.rsqrt (varN h (ix1 f) + Ideal.ofBits .f32 0x3727C5AC#32) * γ (ix1 f)
            + β (ix1 f))
          * Ideal.div 1 (1 + Ideal.exp (-((h (ix2 n f) - meanN h (ix1 f))
              * Ideal.rsqrt (varN h (ix1 f) + Ideal.ofBits .f32 0x3727C5AC#32) * γ (ix1 f) + β (ix1 f)))) := by
  unfold siluN normN
  simp only [addf_apply, mulf_apply, subf_apply, hostDivf_apply, hostExp_apply, hostNegf_apply, hostRsqrt_apply, rowsN_apply,
    fillN_apply, fillC_apply, ofBits_one]

theorem meanE_apply (h : FVec Ideal S1600000x64 .f32) (f : Fin 64) :
    meanE h (ix1 f) = Ideal.div (∑ i : Fin 1600000, h (ix2 i f)) ((1600000 : ℝ) : EReal) := by
  unfold meanE
  rw [hostDivf_apply, colSum, fillC_apply, ofBits_1600000]

theorem centredE_apply (h : FVec Ideal S1600000x64 .f32) (n : Fin 1600000) (f : Fin 64) :
    centredE h (ix2 n f) = h (ix2 n f) - meanE h (ix1 f) := by
  unfold centredE meanE
  rw [subf_apply, broadcastInDim_apply (k := (ix2 0 f : S1x64.Idx)) (hk := fun a => by fin_cases a <;> rfl),
    hostDivf_apply, hostDivf_apply, broadcastInDim_apply (k := (ix1 f : S64.Idx)) (hk := fun a => by fin_cases a <;> rfl),
    broadcastInDim_scalar_apply]
  rfl

theorem varE_apply (h : FVec Ideal S1600000x64 .f32) (f : Fin 64) :
    varE h (ix1 f)
      = Ideal.div (∑ i : Fin 1600000, (h (ix2 i f) - meanE h (ix1 f)) * (h (ix2 i f) - meanE h (ix1 f)))
          (((1600000 : ℝ) : EReal) - 0) := by
  unfold varE
  rw [select_apply, broadcastInDim_scalar_apply, dof_gt _ ofBits_1600000 (by norm_num), select_one, hostDivf_apply, colSum,
    broadcastInDim_scalar_apply, dofOf_apply, ofBits_1600000]
  simp only [mulf_apply, centredE_apply]

theorem outE_apply (res h : FVec Ideal S1600000x64 .f32) (γ β : FVec Ideal S64 .f32) (n : Fin 1600000) (f : Fin 64) :
    addf res (siluE (normE h (meanE h) (varE h) γ β)) (ix2 n f)
      = res (ix2 n f)
        + ((h (ix2 n f) - meanE h (ix1 f)) * Ideal.rsqrt (varE h (ix1 f) + Ideal.ofBits .f32 0x3727C5AC#32) * γ (ix1 f)
            + β (ix1 f))
          * Ideal.div 1 (1 + Ideal.exp (-((h (ix2 n f) - meanE h (ix1 f))
              * Ideal.rsqrt (varE h (ix1 f) + Ideal.ofBits .f32 0x3727C5AC#32) * γ (ix1 f) + β (ix1 f)))) := by
  unfold siluE normE
  simp only [addf_apply, mulf_apply, subf_apply, hostDivf_apply, hostExp_apply, hostNegf_apply, hostRsqrt_apply, rowsE_apply,
    fillE_apply, fillC_apply, ofBits_one]

end Cert.ReferenceIdeal.Hand

end
-- ==== Proof.Bridge.BNNode.lean ====
import proofs.«419296_j32031866093810_3_alg».proof.Proof.KI.HostRead
import proofs.«419296_j32031866093810_3_alg».proof.Proof.KI.Val2
import proofs.«419296_j32031866093810_3_alg».proof.Proof.KI.Val3
import proofs.«419296_j32031866093810_3_alg».proof.Proof.Ref.Stages
import proofs.«419296_j32031866093810_3_alg».proof.Proof.Ref.ValBN
import proofs.«419296_j32031866093810_3_alg».proof.Proof.Math.BN
import proofs.«419296_j32031866093810_3_alg».proof.Proof.Math.Laws
import Idealize.ShloMosaic.Lib.Pipeline.Value
import Idealize.ShloMosaic.Lib.ValueIdx
import Idealize.ShloMosaic.Lib.ValueLayout
import Idealize.ShloMosaic.PureOps.Ideal.Laws

noncomputable section

namespace Cert.Hand.Bridge

open Idealize.ShloMosaic Idealize.ShloMosaic.ValueIdx
open Cert.KernelIdeal Cert.KernelIdeal.Hand
open Cert.Hand.Math
open scoped BigOperators

-- A two-axis array recast to two other axes keeps each entry at its row-major position.
private theorem cast2_at {a b c d : ℕ} {α : Type} (x : (⟨2, ![a, b]⟩ : Shape).Idx → α)
    (h : (⟨2, ![a, b]⟩ : Shape).ShapeCasts ⟨2, ![c, d]⟩) (i : Fin c) (j : Fin d) (k : Fin a) (m : Fin b)
    (e : k.val * b + m.val = i.val * d + j.val) : shapeCast ⟨2, ![c, d]⟩ x h (ix2 i j) = x (ix2 k m) :=
  shapeCast_apply x h _ _ (by rw [Shape.rowMajor_val_two, Shape.rowMajor_val_two]; exact e)

private theorem fold2_row (x : Vec Ideal S100000x64 .f32) (l : Fin 128) (r : Fin 50000) :
    fold2 x (ix2 r l) = x (ix2 (⟨2 * r.val + l.val / 64, by omega⟩ : Fin 100000) (⟨l.val % 64, by omega⟩ : Fin 64)) :=
  cast2_at x _ r l _ _ (by show (2 * r.val + l.val / 64) * 64 + l.val % 64 = r.val * 128 + l.val; omega)

-- A 64-vector laid twice along one row of 128: lane l holds entry l mod 64.
private theorem tile2_at (v : Vec Ideal S64 .f32) (l : Fin 128) (f : Fin 64) (hf : f.val = l.val % 64) :
    tile2 v (ix2 (0 : Fin 1) l) = v (ix1 f) := by
  refine (shapeCast_a_1a_apply _ _ 0 l).trans <|
    (shapeCast_apply _ _ (ix1 l) (ix2 (⟨l.val / 64, by omega⟩ : Fin 2) f) ?_).trans <|
    (broadcastInDim_apply _ _ _ _ (ix2 (0 : Fin 1) f) fun a => ?_).trans (shapeCast_a_1a_apply v _ 0 f)
  · rw [Shape.rowMajor_val_two, Shape.rowMajor_val_one]; show l.val / 64 * 64 + f.val = l.val; omega
  · match a with
    | ⟨0, _⟩ => rfl
    | ⟨1, _⟩ => rfl

-- Adding the two halves of a row of 128 pairs lane f with lane 64 + f.
private theorem halfSum_at (s : Vec Ideal S1x128 .f32) (f : Fin 64) :
    halfSum s (ix1 f) = s (ix2 (0 : Fin 1) ⟨f.val, by omega⟩) + s (ix2 (0 : Fin 1) ⟨64 + f.val, by omega⟩) :=
  congrArg₂ (· + ·)
    ((extractStridedSlice_apply _ _ _ (ix1 f) (ix1 _) fun a => by
      match a with
      | ⟨0, _⟩ => exact (Nat.zero_add _).symm).trans (shapeCast_1a_a_apply s _ _))
    ((extractStridedSlice_apply _ _ _ (ix1 f) (ix1 _) fun a => by
      match a with
      | ⟨0, _⟩ => rfl).trans (shapeCast_1a_a_apply s _ _))

private theorem meanOf_at (c : BitVec 32) (s : Vec Ideal S1x128 .f32) (f : Fin 64) :
    meanOf c s (ix1 f) = Ideal.div (s (ix2 (0 : Fin 1) ⟨f.val, by omega⟩) + s (ix2 (0 : Fin 1) ⟨64 + f.val, by omega⟩)) (Ideal.ofBits .f32 c) :=
  congrArg (Ideal.div · (Ideal.ofBits .f32 c)) (halfSum_at s f)

private theorem varOf_at (c : BitVec 32) (s q : Vec Ideal S1x128 .f32) (f : Fin 64) :
    varOf c s q (ix1 f) = meanOf c q (ix1 f) - meanOf c s (ix1 f) * meanOf c s (ix1 f) := rfl

private theorem node_mean (x : Vec Ideal S100000x64 .f32) (f : Fin 64) :
    meanOf 0x47C35000#32 (colsum2 (fold2 x)) (ix1 f) = Cert.ReferenceIdeal.Hand.meanN (F := Ideal) x (ix1 f) := by
  rw [meanOf_at, Cert.ReferenceIdeal.Hand.meanN_apply, ofBits_100000]
  exact bn_mean_eq (M := 50000) (n := 100000) rfl (fun i g => x (ix2 i g)) _ (fun l => colsum2 (fold2 x) (ix2 (0 : Fin 1) l))
    (fun l => Finset.sum_congr rfl fun r _ => fold2_row x l r) f _ _ rfl rfl

private theorem node_var (x : Vec Ideal S100000x64 .f32) (hx : ∀ i, IsReal (x i)) (f : Fin 64) :
    varOf 0x47C35000#32 (colsum2 (fold2 x)) (colsq2 (fold2 x)) (ix1 f) = Cert.ReferenceIdeal.Hand.varN (F := Ideal) x (ix1 f) := by
  rw [varOf_at, meanOf_at, meanOf_at, Cert.ReferenceIdeal.Hand.varN_apply, Cert.ReferenceIdeal.Hand.meanN_apply, ofBits_100000]
  exact bn_var_eq (M := 50000) (n := 100000) rfl (fun i g => x (ix2 i g)) (fun i g => hx _) 100000 (by norm_num) (by norm_num)
    (fun l => colsum2 (fold2 x) (ix2 (0 : Fin 1) l)) (fun l => colsq2 (fold2 x) (ix2 (0 : Fin 1) l))
    (fun l => Finset.sum_congr rfl fun r _ => fold2_row x l r)
    (fun l => Finset.sum_congr rfl fun r _ => congrArg₂ (· * ·) (fold2_row x l r) (fold2_row x l r)) f _ _ rfl rfl

theorem bn_node_bridge (x res : Vec Ideal S100000x64 .f32) (γ β : Vec Ideal S64 .f32) (hx : ∀ i, IsReal (x i)) :
    unfold2 (bnSilu3 (F := Ideal) (fold2 x) (fold2 res) (tile2 (meanOf 0x47C35000#32 (colsum2 (fold2 x))))
        (tile2 (varOf 0x47C35000#32 (colsum2 (fold2 x)) (colsq2 (fold2 x)))) (tile2 γ) (tile2 β))
      = addf res (Cert.ReferenceIdeal.Hand.siluN (F := Ideal) (Cert.ReferenceIdeal.Hand.normN x (Cert.ReferenceIdeal.Hand.meanN x) (Cert.ReferenceIdeal.Hand.varN x) γ β)) := by
  funext i
  obtain ⟨n, f, rfl⟩ : ∃ (n : Fin 100000) (f : Fin 64), i = ix2 n f := ⟨i 0, i 1, eq_ix2 i⟩
  obtain ⟨p, hp⟩ : ∃ p : Fin 50000, p.val = n.val / 2 := ⟨⟨n.val / 2, by omega⟩, rfl⟩
  obtain ⟨l, hl⟩ : ∃ l : Fin 128, l.val = 64 * (n.val % 2) + f.val := ⟨⟨64 * (n.val % 2) + f.val, by omega⟩, rfl⟩
  have hf : f.val = l.val % 64 := by omega
  rw [Cert.ReferenceIdeal.Hand.outN_apply]
  exact (cast2_at _ _ n f p l (by omega)).trans <| (bnSilu3_apply ..).trans <|
    bnSiluAt3_congr (cast2_at x _ p l n f (by omega)) (cast2_at res _ p l n f (by omega))
      ((tile2_at _ l f hf).trans (node_mean x f)) ((tile2_at _ l f hf).trans (node_var x hx f)) (tile2_at γ l f hf) (tile2_at β l f hf)

end Cert.Hand.Bridge

end
-- ==== Proof.Bridge.BNEdge.lean ====
import proofs.«419296_j32031866093810_3_alg».proof.Proof.KI.HostRead
import proofs.«419296_j32031866093810_3_alg».proof.Proof.KI.Val4
import proofs.«419296_j32031866093810_3_alg».proof.Proof.KI.Val5
import proofs.«419296_j32031866093810_3_alg».proof.Proof.Ref.Stages
import proofs.«419296_j32031866093810_3_alg».proof.Proof.Ref.ValBN
import proofs.«419296_j32031866093810_3_alg».proof.Proof.Math.BN
import proofs.«419296_j32031866093810_3_alg».proof.Proof.Math.Laws
import Idealize.ShloMosaic.Lib.Pipeline.Value
import Idealize.ShloMosaic.Lib.ValueIdx
import Idealize.ShloMosaic.Lib.ValueLayout
import Idealize.ShloMosaic.PureOps.Ideal.Laws

noncomputable section

namespace Cert.Hand.Bridge

open Idealize.ShloMosaic Idealize.ShloMosaic.ValueIdx
open Cert.KernelIdeal Cert.KernelIdeal.Hand
open Cert.Hand.Math
open scoped BigOperators

-- A two-axis array recast to two other axes keeps each entry at its row-major position.
private theorem cast2_at {a b c d : ℕ} {α : Type} (x : (⟨2, ![a, b]⟩ : Shape).Idx → α)
    (h : (⟨2, ![a, b]⟩ : Shape).ShapeCasts ⟨2, ![c, d]⟩) (i : Fin c) (j : Fin d) (k : Fin a) (m : Fin b)
    (e : k.val * b + m.val = i.val * d + j.val) : shapeCast ⟨2, ![c, d]⟩ x h (ix2 i j) = x (ix2 k m) :=
  shapeCast_apply x h _ _ (by rw [Shape.rowMajor_val_two, Shape.rowMajor_val_two]; exact e)

private theorem foldE_row (x : Vec Ideal S1600000x64 .f32) (l : Fin 128) (r : Fin 800000) :
    foldE x (ix2 r l) = x (ix2 (⟨2 * r.val + l.val / 64, by omega⟩ : Fin 1600000) (⟨l.val % 64, by omega⟩ : Fin 64)) :=
  cast2_at x _ r l _ _ (by show (2 * r.val + l.val / 64) * 64 + l.val % 64 = r.val * 128 + l.val; omega)

-- A 64-vector laid twice along one row of 128: lane l holds entry l mod 64.
private theorem tile2_at (v : Vec Ideal S64 .f32) (l : Fin 128) (f : Fin 64) (hf : f.val = l.val % 64) :
    tile2 v (ix2 (0 : Fin 1) l) = v (ix1 f) := by
  refine (shapeCast_a_1a_apply _ _ 0 l).trans <|
    (shapeCast_apply _ _ (ix1 l) (ix2 (⟨l.val / 64, by omega⟩ : Fin 2) f) ?_).trans <|
    (broadcastInDim_apply _ _ _ _ (ix2 (0 : Fin 1) f) fun a => ?_).trans (shapeCast_a_1a_apply v _ 0 f)
  · rw [Shape.rowMajor_val_two, Shape.rowMajor_val_one]; show l.val / 64 * 64 + f.val = l.val; omega
  · match a with
    | ⟨0, _⟩ => rfl
    | ⟨1, _⟩ => rfl

-- Adding the two halves of a row of 128 pairs lane f with lane 64 + f.
private theorem halfSum_at (s : Vec Ideal S1x128 .f32) (f : Fin 64) :
    halfSum s (ix1 f) = s (ix2 (0 : Fin 1) ⟨f.val, by omega⟩) + s (ix2 (0 : Fin 1) ⟨64 + f.val, by omega⟩) :=
  congrArg₂ (· + ·)
    ((extractStridedSlice_apply _ _ _ (ix1 f) (ix1 _) fun a => by
      match a with
      | ⟨0, _⟩ => exact (Nat.zero_add _).symm).trans (shapeCast_1a_a_apply s _ _))
    ((extractStridedSlice_apply _ _ _ (ix1 f) (ix1 _) fun a => by
      match a with
      | ⟨0, _⟩ => rfl).trans (shapeCast_1a_a_apply s _ _))

private theorem meanOf_at (c : BitVec 32) (s : Vec Ideal S1x128 .f32) (f : Fin 64) :
    meanOf c s (ix1 f) = Ideal.div (s (ix2 (0 : Fin 1) ⟨f.val, by omega⟩) + s (ix2 (0 : Fin 1) ⟨64 + f.val, by omega⟩)) (Ideal.ofBits .f32 c) :=
  congrArg (Ideal.div · (Ideal.ofBits .f32 c)) (halfSum_at s f)

private theorem varOf_at (c : BitVec 32) (s q : Vec Ideal S1x128 .f32) (f : Fin 64) :
    varOf c s q (ix1 f) = meanOf c q (ix1 f) - meanOf c s (ix1 f) * meanOf c s (ix1 f) := rfl

private theorem edge_mean (x : Vec Ideal S1600000x64 .f32) (f : Fin 64) :
    meanOf 0x49C35000#32 (colsum4 (foldE x)) (ix1 f) = Cert.ReferenceIdeal.Hand.meanE (F := Ideal) x (ix1 f) := by
  rw [meanOf_at, Cert.ReferenceIdeal.Hand.meanE_apply, ofBits_1600000]
  exact bn_mean_eq (M := 800000) (n := 1600000) rfl (fun i g => x (ix2 i g)) _ (fun l => colsum4 (foldE x) (ix2 (0 : Fin 1) l))
    (fun l => Finset.sum_congr rfl fun r _ => foldE_row x l r) f _ _ rfl rfl

private theorem edge_var (x : Vec Ideal S1600000x64 .f32) (hx : ∀ i, IsReal (x i)) (f : Fin 64) :
    varOf 0x49C35000#32 (colsum4 (foldE x)) (colsq4 (foldE x)) (ix1 f) = Cert.ReferenceIdeal.Hand.varE (F := Ideal) x (ix1 f) := by
  rw [varOf_at, meanOf_at, meanOf_at, Cert.ReferenceIdeal.Hand.varE_apply, Cert.ReferenceIdeal.Hand.meanE_apply, ofBits_1600000]
  exact bn_var_eq (M := 800000) (n := 1600000) rfl (fun i g => x (ix2 i g)) (fun i g => hx _) 1600000 (by norm_num) (by norm_num)
    (fun l => colsum4 (foldE x) (ix2 (0 : Fin 1) l)) (fun l => colsq4 (foldE x) (ix2 (0 : Fin 1) l))
    (fun l => Finset.sum_congr rfl fun r _ => foldE_row x l r)
    (fun l => Finset.sum_congr rfl fun r _ => congrArg₂ (· * ·) (foldE_row x l r) (foldE_row x l r)) f _ _ rfl rfl

theorem bn_edge_bridge (x res : Vec Ideal S1600000x64 .f32) (γ β : Vec Ideal S64 .f32) (hx : ∀ i, IsReal (x i)) :
    unfoldE (bnSilu5 (F := Ideal) (foldE x) (foldE res) (tile2 (meanOf 0x49C35000#32 (colsum4 (foldE x))))
        (tile2 (varOf 0x49C35000#32 (colsum4 (foldE x)) (colsq4 (foldE x)))) (tile2 γ) (tile2 β))
      = addf res (Cert.ReferenceIdeal.Hand.siluE (F := Ideal) (Cert.ReferenceIdeal.Hand.normE x (Cert.ReferenceIdeal.Hand.meanE x) (Cert.ReferenceIdeal.Hand.varE x) γ β)) := by
  funext i
  obtain ⟨n, f, rfl⟩ : ∃ (n : Fin 1600000) (f : Fin 64), i = ix2 n f := ⟨i 0, i 1, eq_ix2 i⟩
  obtain ⟨p, hp⟩ : ∃ p : Fin 800000, p.val = n.val / 2 := ⟨⟨n.val / 2, by omega⟩, rfl⟩
  obtain ⟨l, hl⟩ : ∃ l : Fin 128, l.val = 64 * (n.val % 2) + f.val := ⟨⟨64 * (n.val % 2) + f.val, by omega⟩, rfl⟩
  have hf : f.val = l.val % 64 := by omega
  rw [Cert.ReferenceIdeal.Hand.outE_apply]
  exact (cast2_at _ _ n f p l (by omega)).trans <| (bnSilu5_apply ..).trans <|
    bnSiluAt5_congr (cast2_at x _ p l n f (by omega)) (cast2_at res _ p l n f (by omega))
      ((tile2_at _ l f hf).trans (edge_mean x f)) ((tile2_at _ l f hf).trans (edge_var x hx f)) (tile2_at γ l f hf) (tile2_at β l f hf)

end Cert.Hand.Bridge

end
-- ==== Proof.LibRowScatter.lean ====
import Idealize.ShloMosaic.Lib.ValueIdx
import Idealize.ShloMosaic.Lib.IdealHost
import Idealize.ShloMosaic.Lib.Pipeline.Value

noncomputable section

namespace Cert.LibRowScatter

open Idealize.ShloMosaic Idealize.ShloMosaic.ValueIdx
open scoped BigOperators

theorem getElem_of_eq_singleton {α : Type} {L : List α} {c : α} (h : L = [c]) (k : Nat) (hk : k < L.length) :
    L[k] = c := by
  subst h; obtain rfl : k = 0 := by simpa using hk
  rfl

-- Row e of the result is the operand's row at the e-th index, clamped to the last row.
theorem gather_rows_apply {α : Type} {N n C w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (l : Fin C) :
    Host.gather d x idx (ix2 e l)
      = x (ix2 ⟨min (idx (ix2 e (0 : Fin 1))).toInt.toNat (N - 1), by omega⟩ l) := by
  have hb : ∀ a : Fin 2, a ∉ d.operandBatchingDims := by simp [hob]
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by simp [hsim]
  have hm1 : (1 : Fin 2) ∉ d.startIndexMap := by simp [hsim]
  have hsl : d.sliceSizes 0 = 1 := d.slice_collapsed 0 (by simp [hcoll])
  have hbd : d.batchDims = [0] := by show Shape.kept _ d.offsetDims = [0]; rw [hoff]; rfl
  unfold Host.gather
  refine congrArg x (funext fun a => Fin.ext ?_)
  match a with
  | ⟨0, _⟩ =>
    show d.start (ix2 e l) idx 0 + d.batchCoord (ix2 e l) 0 + d.offCoord (ix2 e l) 0 = min (idx (ix2 e (0 : Fin 1))).toInt.toNat (N - 1)
    rw [d.batchCoord_eq_zero _ _ (hb 0), d.offCoord_eq_zero _ _ hk0]
    simp only [Nat.add_zero]
    unfold GatherDims.start
    rw [dif_pos hm0, hsl]
    have hsi : d.siIdx (ix2 e l) ⟨d.startIndexMap.idxOf 0, List.idxOf_lt_length_iff.2 hm0⟩ = ix2 e (0 : Fin 1) := by
      funext b
      refine Fin.ext ?_
      match b with
      | ⟨0, _⟩ =>
        unfold GatherDims.siIdx
        rw [dif_neg (by rw [hivd]; exact Nat.zero_ne_one)]
        unfold GatherDims.siCoord
        show ((ix2 e l : (⟨2, ![n, C]⟩ : Shape).Idx) (d.batchDims[_]'_)).val = e.val
        rw [getElem_of_eq_singleton hbd]; rfl
      | ⟨1, _⟩ =>
        unfold GatherDims.siIdx
        rw [dif_pos (by rw [hivd])]
        show List.idxOf (0 : Fin 2) d.startIndexMap = 0
        rw [hsim]; simp
    rw [hsi]
    rfl
  | ⟨1, _⟩ =>
    show d.start (ix2 e l) idx 1 + d.batchCoord (ix2 e l) 1 + d.offCoord (ix2 e l) 1 = l.val
    rw [d.batchCoord_eq_zero _ _ (hb 1)]
    unfold GatherDims.start GatherDims.offCoord
    rw [dif_neg hm1, dif_pos hk1, getElem_of_eq_singleton hoff]
    show 0 + 0 + l.val = l.val
    omega

-- Update (e, l) lands at (r, j) exactly when the e-th index reads r and l = j.
theorem scatter_rows_resultIdx {N n C w : Nat}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (idx : IVec ⟨2, ![n, 1]⟩ w) (e : Fin n) (l : Fin C) (r : Fin N) (j : Fin C) :
    d.resultIdx? (ix2 e l) idx = some (ix2 r j) ↔ (idx (ix2 e (0 : Fin 1))).toInt = (r.val : ℤ) ∧ l = j := by
  have hsk : d.sKept = [1] := by show Shape.kept _ d.insertedWindowDims = [1]; rw [hins]; rfl
  have hk0 : (0 : Fin 2) ∉ d.sKept := by simp [hsk]
  have hk1 : (1 : Fin 2) ∈ d.sKept := by simp [hsk]
  have hm0 : (0 : Fin 2) ∈ d.scatterDimsToOperandDims := by simp [hsd]
  have hm1 : (1 : Fin 2) ∉ d.scatterDimsToOperandDims := by simp [hsd]
  have hus : d.uScatter = [0] := by show Shape.kept _ d.updateWindowDims = [0]; rw [huw]; rfl
  have hsi : d.siIdx (ix2 e l) ⟨d.scatterDimsToOperandDims.idxOf 0, List.idxOf_lt_length_iff.2 hm0⟩ = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      show ((ix2 e l : (⟨2, ![n, C]⟩ : Shape).Idx) (d.uScatter[_]'_)).val = e.val
      rw [getElem_of_eq_singleton hus]; rfl
    | ⟨1, _⟩ =>
      unfold ScatterDims.siIdx
      rw [dif_pos (by rw [hivd])]
      show List.idxOf (0 : Fin 2) d.scatterDimsToOperandDims = 0
      rw [hsd]; simp
  have hs0 : d.start (ix2 e l) idx 0 + ((d.window (ix2 e l) 0 : ℕ) : ℤ) = (idx (ix2 e (0 : Fin 1))).toInt := by
    unfold ScatterDims.start ScatterDims.window; rw [dif_pos hm0, hsi, dif_neg hk0]; exact add_zero _
  have hs1 : d.start (ix2 e l) idx 1 + ((d.window (ix2 e l) 1 : ℕ) : ℤ) = (l.val : ℤ) := by
    unfold ScatterDims.start ScatterDims.window
    rw [dif_neg hm1, dif_pos hk1, getElem_of_eq_singleton huw]; exact zero_add _
  unfold ScatterDims.resultIdx?
  split
  · next h =>
    have hh := (h 0).1
    rw [hs0] at hh
    rw [Option.some.injEq, funext_iff, Fin.forall_fin_two, Fin.ext_iff, Fin.ext_iff, Fin.ext_iff (a := l)]
    show (d.start (ix2 e l) idx 0 + ((d.window (ix2 e l) 0 : ℕ) : ℤ)).toNat = r.val
      ∧ (d.start (ix2 e l) idx 1 + ((d.window (ix2 e l) 1 : ℕ) : ℤ)).toNat = j.val ↔ _
    rw [hs0, hs1]; omega
  · next h =>
    refine iff_of_false (by simp) fun ⟨h0, _⟩ => h (Fin.forall_fin_two.2 ⟨?_, ?_⟩)
    · rw [hs0, h0]; exact ⟨Int.natCast_nonneg _, Int.ofNat_lt.2 r.isLt⟩
    · rw [hs1]; exact ⟨Int.natCast_nonneg _, Int.ofNat_lt.2 l.isLt⟩

-- Row r of the result is the operand's row plus every update row whose index reads r.
theorem scatterAdd_rows_apply {N n C w : Nat} {φ : FTy}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (x0 : FVec Ideal ⟨2, ![N, C]⟩ φ) (idx : IVec ⟨2, ![n, 1]⟩ w) (upd : FVec Ideal ⟨2, ![n, C]⟩ φ) (r : Fin N) (j : Fin C) :
    Host.scatterAdd d x0 idx upd (ix2 r j)
      = x0 (ix2 r j)
        + ∑ e ∈ Finset.univ.filter (fun e : Fin n => (idx (ix2 e (0 : Fin 1))).toInt = (r.val : ℤ)), upd (ix2 e j) := by
  have hP : ∀ (e : Fin n) (l : Fin C), (d.resultIdx? (ix2 e l) idx = some (ix2 r j))
        ↔ ((idx (ix2 e (0 : Fin 1))).toInt = (r.val : ℤ) ∧ l = j) :=
    fun e l => scatter_rows_resultIdx d huw hins hsd hivd idx e l r j
  unfold Host.scatterAdd
  rw [Ideal.hostScatterAdd_def]
  unfold Ideal.hostScatterAdd
  refine congrArg (fun t => x0 (ix2 r j) + t) ?_
  have hy : ∀ y ∈ Finset.univ.filter (fun y => d.resultIdx? y idx = some (ix2 r j)),
      (idx (ix2 (y 0) (0 : Fin 1))).toInt = (r.val : ℤ) ∧ y 1 = j := fun y hy =>
    (hP _ _).1 (eq_ix2 y ▸ (Finset.mem_filter.1 hy).2)
  refine Finset.sum_bij' (fun y _ => y 0) (fun e _ => ix2 e j) ?_ ?_ ?_ ?_ ?_
  · exact fun y h => Finset.mem_filter.2 ⟨Finset.mem_univ _, (hy y h).1⟩
  · exact fun e he => Finset.mem_filter.2 ⟨Finset.mem_univ _, (hP e j).2 ⟨(Finset.mem_filter.1 he).2, rfl⟩⟩
  · exact fun y h => (hy y h).2 ▸ (eq_ix2 y).symm
  · exact fun e he => rfl
  · exact fun y h => (hy y h).2 ▸ congrArg upd (eq_ix2 y)

end Cert.LibRowScatter

end
-- ==== Proof.Ref.ScatterRead.lean ====
import proofs.«419296_j32031866093810_3_alg».proof.Proof.Ref.Stages
import proofs.«419296_j32031866093810_3_alg».proof.Proof.Math.Laws
import proofs.«419296_j32031866093810_3_alg».proof.Proof.Bridge.Gather
import proofs.«419296_j32031866093810_3_alg».proof.Proof.LibRowScatter
import Idealize.ShloMosaic.Lib.ValueIdx
import Idealize.ShloMosaic.PureOps.Ideal

noncomputable section

namespace Cert.ReferenceIdeal.Hand

open Cert.ReferenceIdeal Cert.ReferenceIdeal.Gen Idealize.ShloMosaic Idealize.ShloMosaic.ValueIdx Cert.Hand.Math
open scoped BigOperators

theorem sumInto_apply (i : IVec S1600000 32) (u : FVec Ideal S1600000x64 .f32) (r : Fin 100000) (j : Fin 64) :
    sumInto i u (ix2 r j)
      = ∑ e ∈ Finset.univ.filter (fun e : Fin 1600000 => (colIdx i (ix2 e (0 : Fin 1))).toInt = (r.val : ℤ)), u (ix2 e j) := by
  have h := Cert.LibRowScatter.scatterAdd_rows_apply scatter_S100000x64_S1600000x1_S1600000x64_1_0_0_1 rfl rfl rfl rfl
    (fillN (F := Ideal) 0x00000000#32) (colIdx i) u r j
  rwa [show fillN (F := Ideal) 0x00000000#32 (ix2 r j) = 0 from ofBits_zero, zero_add] at h

-- A property that finite sums keep passes from the summands to every scattered sum.
theorem sumInto_of {P : EReal → Prop} (hP : ∀ (s : Finset (Fin 1600000)) (f : Fin 1600000 → EReal), (∀ e ∈ s, P (f e)) → P (∑ e ∈ s, f e))
    (i : IVec S1600000 32) (u : FVec Ideal S1600000x64 .f32) (hu : ∀ k, P (u k)) (k : S100000x64.Idx) : P (sumInto i u k) := by
  obtain ⟨r, j, rfl⟩ : ∃ (r : Fin 100000) (j : Fin 64), k = ix2 r j := ⟨k 0, k 1, eq_ix2 k⟩
  rw [sumInto_apply]; exact hP _ _ fun e _ => hu _

end Cert.ReferenceIdeal.Hand

end
-- ==== Proof.Ref.Real.lean ====
import proofs.«419296_j32031866093810_3_alg».proof.Proof.Ref.Stages
import proofs.«419296_j32031866093810_3_alg».proof.Proof.Math.Laws
import proofs.«419296_j32031866093810_3_alg».proof.Proof.Math.BN
import proofs.«419296_j32031866093810_3_alg».proof.Proof.Ref.ScatterRead
import Idealize.ShloMosaic.PureOps.Ideal.Laws

noncomputable section

namespace Cert.ReferenceIdeal.Hand

open Cert.ReferenceIdeal Idealize.ShloMosaic Cert.Hand.Math
open scoped BigOperators

structure Inputs.AllReal (a : Inputs Ideal) : Prop where
  nodes : ∀ i, IsReal (a.nodes i)
  edges : ∀ i, IsReal (a.edges i)
  wSrcGate : ∀ i, IsReal (a.wSrcGate i)
  bSrcGate : ∀ i, IsReal (a.bSrcGate i)
  wDstGate : ∀ i, IsReal (a.wDstGate i)
  bDstGate : ∀ i, IsReal (a.bDstGate i)
  wEdgeGate : ∀ i, IsReal (a.wEdgeGate i)
  bEdgeGate : ∀ i, IsReal (a.bEdgeGate i)
  wSrcUpd : ∀ i, IsReal (a.wSrcUpd i)
  bSrcUpd : ∀ i, IsReal (a.bSrcUpd i)
  wDstUpd : ∀ i, IsReal (a.wDstUpd i)
  bDstUpd : ∀ i, IsReal (a.bDstUpd i)
  gammaN : ∀ i, IsReal (a.gammaN i)
  betaN : ∀ i, IsReal (a.betaN i)
  gammaE : ∀ i, IsReal (a.gammaE i)
  betaE : ∀ i, IsReal (a.betaE i)

-- A product with a real matrix, plus a real term, is real.
theorem dot_add_isReal {s t u : Shape} (d : DotDims s t u) {x : FVec Ideal s .f32} {w : FVec Ideal t .f32}
    {r : FVec Ideal u .f32} (hx : ∀ i, IsReal (x i)) (hw : ∀ i, IsReal (w i)) {i : u.Idx} (hr : IsReal (r i)) :
    IsReal (addf (Host.dotGeneral d none x w) r i) := by
  show IsReal (FloatOps.dotGeneral d none .single x w i + r i)
  rw [Ideal.dotGeneral_apply]
  exact (isReal_sum _ _ fun k _ => (hx _).mul (hw _)).add hr

theorem linN_isReal {x : FVec Ideal S100000x64 .f32} {w : FVec Ideal S64x64 .f32} {b : FVec Ideal S64 .f32}
    (hx : ∀ i, IsReal (x i)) (hw : ∀ i, IsReal (w i)) (hb : ∀ k, IsReal (b k)) (i : S100000x64.Idx) :
    IsReal (linN x w b i) := dot_add_isReal _ hx hw (hb _)

theorem linE_isReal {e : FVec Ideal S1600000x64 .f32} {w : FVec Ideal S64x64 .f32} {b : FVec Ideal S64 .f32}
    (he : ∀ i, IsReal (e i)) (hw : ∀ i, IsReal (w i)) (hb : ∀ k, IsReal (b k)) (i : S1600000x64.Idx) :
    IsReal (linE e w b i) := dot_add_isReal _ he hw (hb _)

-- A gathered row's entry is an entry of the table.
theorem takeRows_isReal {x : FVec Ideal S100000x64 .f32} (hx : ∀ k, IsReal (x k)) (i : IVec S1600000 32)
    (j : S1600000x64.Idx) : IsReal (takeRows x i j) := hx _

theorem gate_isPosReal {z : FVec Ideal S1600000x64 .f32} {j : S1600000x64.Idx} (hz : IsReal (z j)) :
    IsPosReal (gate z j) := by
  rw [show gate z j = Ideal.logistic (z j) from logistic_expanded _ (z j) ofBits_one]; exact logistic_isPosReal hz

private theorem divf_addf_apply {s : Shape} (x y z : FVec Ideal s .f32) (n : s.Idx) :
    Host.divf x (addf y z) n = Ideal.div (x n) (y n + z n) := rfl

variable {a : Inputs Ideal}

theorem gateLogits_real (h : a.AllReal) (j : S1600000x64.Idx) : IsReal (gateLogits a j) :=
  ((takeRows_isReal (linN_isReal h.nodes h.wSrcGate h.bSrcGate) a.src j).add
    (takeRows_isReal (linN_isReal h.nodes h.wDstGate h.bDstGate) a.dst j)).add (linE_isReal h.edges h.wEdgeGate h.bEdgeGate j)

theorem sigma_isPosReal (h : a.AllReal) (j : S1600000x64.Idx) : IsPosReal (sigma a j) :=
  gate_isPosReal (gateLogits_real h j)

theorem sumSigmaH_isReal (h : a.AllReal) (n : S100000x64.Idx) : IsReal (sumSigmaH a n) :=
  sumInto_of (P := IsReal) isReal_sum a.dst _
    (fun j => (takeRows_isReal (linN_isReal h.nodes h.wDstUpd h.bDstUpd) a.src j).mul (sigma_isPosReal h j).isReal) n

theorem aggDen_isPosReal (h : a.AllReal) (n : S100000x64.Idx) :
    IsPosReal (sumSigma a n + fillN (F := Ideal) 0x358637BD#32 n) :=
  (sumInto_of (P := IsNonnegReal) isNonnegReal_sum a.dst _ (fun j => (sigma_isPosReal h j).isNonnegReal) n).add_pos
    ofBits_eps_isPosReal

theorem agg_isReal (h : a.AllReal) (n : S100000x64.Idx) : IsReal (agg a n) := by
  have e : agg a n = Ideal.div (sumSigmaH a n) (sumSigma a n + fillN (F := Ideal) 0x358637BD#32 n) :=
    divf_addf_apply (sumSigmaH a) (sumSigma a) (fillN (F := Ideal) 0x358637BD#32) n
  rw [e]
  exact (sumSigmaH_isReal h n).div (aggDen_isPosReal h n).isReal (aggDen_isPosReal h n).ne_zero

theorem xPre_real (h : a.AllReal) (n : S100000x64.Idx) : IsReal (xPre a n) :=
  (linN_isReal h.nodes h.wSrcUpd h.bSrcUpd n).add (agg_isReal h n)

end Cert.ReferenceIdeal.Hand

end
-- ==== Proof.KI.PreReal.lean ====
import proofs.«419296_j32031866093810_3_alg».proof.Pre_finite_inputs
import proofs.«419296_j32031866093810_3_alg».proof.Proof.Gen.Pre_finite_inputs
import proofs.«419296_j32031866093810_3_alg».proof.Proof.Math.Laws
import Idealize.ShloMosaic.Lib.ReduceAll
import Idealize.ShloMosaic.PureOps.Ideal
import Mathlib.Data.EReal.Basic

noncomputable section

namespace Cert.KernelIdeal.Hand

open Idealize.ShloMosaic Cert.Pre_finite_inputs Cert.Hand.Math

instance subsingleton_scalar_idx : Subsingleton S_.Idx := ⟨fun a b => funext fun d => d.elim0⟩

theorem ofBits_inf : Ideal.ofBits .f32 0x7F800000#32 = (⊤ : EReal) := by
  simp [Ideal.ofBits, Ideal.ieee]

/-- An extended real with `max x (-x) < ⊤` is neither infinity. -/
theorem isReal_of_abs_lt_top (x : EReal) (h : max x (-x) < ⊤) : IsReal x := by
  induction x using EReal.rec with
  | bot => simp at h
  | coe r => exact ⟨r, rfl⟩
  | top => simp at h

theorem isReal_of_test (x : Ideal .f32)
    (h : FloatOps.cmpf (F := Ideal) (φ := .f32) .olt (FloatOps.hostAbsf (F := Ideal) (φ := .f32) x)
          (FloatOps.ofBits (F := Ideal) .f32 0x7F800000#32) = 1#1) : IsReal x := by
  have h' : Ideal.cmp .olt (max x (-x)) (Ideal.ofBits .f32 0x7F800000#32) = 1#1 := h
  rw [ofBits_inf] at h'
  have h'' : max x (-x) < (⊤ : EReal) := by
    by_contra hn
    simp [Ideal.cmp, hn] at h'
  exact isReal_of_abs_lt_top x h''

theorem all_real_of_reduce {s : Shape} {axes : List (Fin s.rank)} (hb : S_.BroadcastsInDim s (![] : Fin 0 → Fin s.rank))
    (hr : s.ReducesTo axes S_) (hu : 0 < S_.numel) (a : FVec Ideal s .f32) (j : S_.Idx)
    (h : Host.reduce IntOp.andi
          (cmpf .olt (Host.absf a) (broadcastInDim s ![] hb (constant (F := Ideal) S_ .f32 0x7F800000#32)))
          (constantI S_ 1 1#1) hr hu j = 1#1) :
    ∀ i, IsReal (a i) := by
  intro i
  exact isReal_of_test (a i) (Host.reduce_andi_all _ _ hr hu j h i)

/-- The precondition is the conjunction, array by array, of `|x| < +inf` at every entry: each float argument's entries are reals. -/
theorem finite_inputs_real [Cert.Pre_finite_inputs.Facts]
    {a0 : FVec Ideal S100000x64 .f32} {a1 : FVec Ideal S1600000x64 .f32} {a2 a3 : IVec S1600000 32}
    {a4 : FVec Ideal S64x64 .f32} {a5 : FVec Ideal S64 .f32} {a6 : FVec Ideal S64x64 .f32} {a7 : FVec Ideal S64 .f32}
    {a8 : FVec Ideal S64x64 .f32} {a9 : FVec Ideal S64 .f32} {a10 : FVec Ideal S64x64 .f32} {a11 : FVec Ideal S64 .f32}
    {a12 : FVec Ideal S64x64 .f32} {a13 a14 a15 a16 a17 : FVec Ideal S64 .f32}
    (h : Cert.Pre_finite_inputs.fn (F := Ideal) a0 a1 a2 a3 a4 a5 a6 a7 a8 a9 a10 a11 a12 a13 a14 a15 a16 a17 = (fun _ => 1#1)) :
    (∀ i, IsReal (a0 i)) ∧ (∀ i, IsReal (a1 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) := by
  have hj := congrFun h (fun d => d.elim0)
  dsimp only [fn, fn_part1, fn_part2, fn_part3, fn_part4, andi] at hj
  simp only [IntOp.andi_eq_one] at hj
  obtain ⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩ := hj
  exact ⟨all_real_of_reduce _ _ _ _ _ h0,
    all_real_of_reduce _ _ _ _ _ h1,
    all_real_of_reduce _ _ _ _ _ h4,
    all_real_of_reduce _ _ _ _ _ h5,
    all_real_of_reduce _ _ _ _ _ h6,
    all_real_of_reduce _ _ _ _ _ h7,
    all_real_of_reduce _ _ _ _ _ h8,
    all_real_of_reduce _ _ _ _ _ h9,
    all_real_of_reduce _ _ _ _ _ h10,
    all_real_of_reduce _ _ _ _ _ h11,
    all_real_of_reduce _ _ _ _ _ h12,
    all_real_of_reduce _ _ _ _ _ h13,
    all_real_of_reduce _ _ _ _ _ h14,
    all_real_of_reduce _ _ _ _ _ h15,
    all_real_of_reduce _ _ _ _ _ h16,
    all_real_of_reduce _ _ _ _ _ h17⟩

end Cert.KernelIdeal.Hand

end
-- ==== Proof.Bridge.Final.lean ====
import proofs.«419296_j32031866093810_3_alg».proof.Proof.Bridge.KVal
import proofs.«419296_j32031866093810_3_alg».proof.Proof.Bridge.Pre
import proofs.«419296_j32031866093810_3_alg».proof.Proof.Bridge.BNNode
import proofs.«419296_j32031866093810_3_alg».proof.Proof.Bridge.BNEdge
import proofs.«419296_j32031866093810_3_alg».proof.Proof.Ref.Real
import proofs.«419296_j32031866093810_3_alg».proof.Proof.KI.PreReal

noncomputable section

namespace Cert.Hand.Bridge

open Idealize.ShloMosaic Idealize.SL.Sem
open Cert.ReferenceIdeal.Hand (Inputs)

variable [Cert.Pre_finite_inputs.Facts]

/-- Memories that agree on the eighteen arguments give the two programs the same argument record. -/
theorem final_inputs (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Hand.inputs m' c = kin m c := by
  simp only [Cert.ReferenceIdeal.Hand.inputs, Cert.ReferenceIdeal.Hand.inputsOf, kin, Inputs.mk.injEq]
  exact hagree

/-- Under the precondition every entry of the sixteen float arguments is a real. -/
theorem final_allReal (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = (fun _ => 1#1)) :
    (kin m c).AllReal := by
  obtain ⟨h0, h1, h4, h5, h6, h7, h8, h9, h10, h11, h12, h13, h14, h15, h16, h17⟩ := Cert.KernelIdeal.Hand.finite_inputs_real hpre
  exact ⟨h0, h1, h4, h5, h6, h7, h8, h9, h10, h11, h12, h13, h14, h15, h16, h17⟩

/-- The reference's first result is what the kernel program leaves in its first result buffer: the pre-activations agree, and on reals the batch normalisation from column sums and sums of squares, Σx²/N − μ², is the centred one. -/
theorem final0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hin : Cert.ReferenceIdeal.Hand.inputs m' c = kin m c) (hreal : (kin m c).AllReal) :
    Cert.ReferenceIdeal.Hand.res0 m' c = Cert.KernelIdeal.Gen.V13 m (Cert.KernelIdeal.Hand.outs m) c (Proc.devRef .tc Cert.KernelIdeal.main_v66) := by
  refine Eq.trans ?_ (result0_val m c).symm
  rw [xpre_eq (kin m c),
    bn_node_bridge (Cert.ReferenceIdeal.Hand.xPre (kin m c)) (kin m c).nodes (kin m c).gammaN (kin m c).betaN (fun i => Cert.ReferenceIdeal.Hand.xPre_real hreal i)]
  show Cert.ReferenceIdeal.Hand.out0 (Cert.ReferenceIdeal.Hand.inputs m' c) = _
  rw [hin]
  rfl

/-- The second result likewise, with the gate logits and the edges. -/
theorem final1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hin : Cert.ReferenceIdeal.Hand.inputs m' c = kin m c) (hreal : (kin m c).AllReal) :
    Cert.ReferenceIdeal.Hand.res1 m' c = Cert.KernelIdeal.Gen.V13 m (Cert.KernelIdeal.Hand.outs m) c (Proc.devRef .tc Cert.KernelIdeal.main_v101) := by
  refine Eq.trans ?_ (result1_val m c).symm
  rw [logits_eq (kin m c),
    bn_edge_bridge (Cert.ReferenceIdeal.Hand.gateLogits (kin m c)) (kin m c).edges (kin m c).gammaE (kin m c).betaE (fun i => Cert.ReferenceIdeal.Hand.gateLogits_real hreal i)]
  show Cert.ReferenceIdeal.Hand.out1 (Cert.ReferenceIdeal.Hand.inputs m' c) = _
  rw [hin]
  rfl

end Cert.Hand.Bridge

end
-- ==== Proof.lean ====
import proofs.«419296_j32031866093810_3_alg».proof.Defs
import proofs.«419296_j32031866093810_3_alg».proof.Proof.Gen.Kernel
import proofs.«419296_j32031866093810_3_alg».proof.Proof.Gen.KernelIdeal
import proofs.«419296_j32031866093810_3_alg».proof.Proof.Gen.ReferenceIdeal
import proofs.«419296_j32031866093810_3_alg».proof.Proof.Gen.Pre_finite_inputs
import proofs.«419296_j32031866093810_3_alg».proof.Proof.KB.Run
import proofs.«419296_j32031866093810_3_alg».proof.Proof.KI.Run
import proofs.«419296_j32031866093810_3_alg».proof.Proof.Ref.Run
import proofs.«419296_j32031866093810_3_alg».proof.Proof.Bridge.Final
import Idealize.ShloMosaic.Adequacy
import Idealize.ShloMosaic.Init

noncomputable section

namespace Cert.Proof

open Idealize.ShloMosaic Idealize.SL.Sem Cert.Hand.Bridge

theorem frame_k : Cert.frame_Kernel := fun m ρ _ =>
  (θ_run Cert.Kernel.defs _ _).mono (fun _ h c => Cert.Kernel.Hand.kept m c (h c)) (Cert.Kernel.Hand.run_all (F := Bits) m ρ)

theorem frame_ki : Cert.frame_KernelIdeal := fun m ρ _ =>
  (θ_run Cert.KernelIdeal.defs _ _).mono (fun _ h c => Cert.KernelIdeal.Hand.kept m c (h c)) (Cert.KernelIdeal.Hand.run_all (F := Ideal) m ρ)

theorem frame_ri : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

/-- Both runs end with the same two arrays: the kernel program's last contents at its two result buffers, which the reference's composed term equals on arguments that agree and are finite. -/
theorem algebraic : Cert.algebraic_KernelIdeal_ReferenceIdeal := fun m ρ m' ρ' hpre hagree =>
  ⟨fun c => Cert.KernelIdeal.Gen.V13 m (Cert.KernelIdeal.Hand.outs m) c (Proc.devRef .tc Cert.KernelIdeal.main_v66),
    fun c => Cert.KernelIdeal.Gen.V13 m (Cert.KernelIdeal.Hand.outs m) c (Proc.devRef .tc Cert.KernelIdeal.main_v101),
    (θ_run Cert.KernelIdeal.defs _ _).mono (fun _ h c => ⟨h c _ (Cert.KernelIdeal.Hand.mem_uc Cert.KernelIdeal.main_v66 (by decide)),
      h c _ (Cert.KernelIdeal.Hand.mem_uc Cert.KernelIdeal.main_v101 (by decide)), Cert.KernelIdeal.Hand.kept m c (h c)⟩)
      (Cert.KernelIdeal.Hand.run_all (F := Ideal) m ρ),
    (θ_run Cert.ReferenceIdeal.defs _ _).mono (fun _ h c =>
      have hin := final_inputs m m' c (hagree c)
      have hreal := final_allReal m c (hpre c)
      ⟨(h c).1.trans (final0 m m' c hin hreal), (h c).2.1.trans (final1 m m' c hin hreal), (h c).2.2⟩)
      (Cert.ReferenceIdeal.Hand.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
